-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg9 : FVec F S64x16 .f32) (main_arg10 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x1600000 32 := broadcastInDim S2x1600000 ![] bcast_S_S2x1600000 main_c_16
  let main_v45 : IVec S2x1600000 1 := cmpi .sge main_arg1 main_v44
  let main_c_17 : IVec S_ 32 := constantI S_ 32 50000#32
  let main_v46 : IVec S2x1600000 32 := broadcastInDim S2x1600000 ![] bcast_S_S2x1600000 main_c_17
  let main_v47 : IVec S2x1600000 1 := cmpi .slt main_arg1 main_v46
  let main_v48 : IVec S2x1600000 1 := andi main_v45 main_v47
  let main_c_18 : IVec S_ 1 := constantI S_ 1 1#1
  let main_v49 : IVec S_ 1 := (fun x v => Host.reduce IntOp.andi x v reducesTo_S2x1600000_S_d0_1 h_S_) main_v48 main_c_18
  let main_v50 : IVec S_ 1 := andi main_v43 main_v49
  main_v50

def fn_part1 {F : FTy → Type} [FloatOps F] (main_arg1 : IVec S2x1600000 32) (main_arg6 : FVec F S64 .f32) (main_arg7 : FVec F S64x64 .f32) (main_arg8 : FVec F S64 .f32) (main_arg9 : FVec F S64x16 .f32) (main_arg10 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S2x1600000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x64 : Shape := ⟨2, ![1, 64]⟩
abbrev S1x16 : Shape := ⟨2, ![1, 16]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S50176x64 : Shape := ⟨2, ![50176, 64]⟩
abbrev S50176 : Shape := ⟨1, ![50176]⟩
abbrev S1x50176 : Shape := ⟨2, ![1, 50176]⟩
abbrev S1x7168 : Shape := ⟨2, ![1, 7168]⟩
abbrev S7168x64 : Shape := ⟨2, ![7168, 64]⟩
abbrev S64x1 : Shape := ⟨2, ![64, 1]⟩
abbrev S64x7168 : Shape := ⟨2, ![64, 7168]⟩

abbrev nBuf : Space → Nat
  | .hbm => 115
  | .vmem => 59
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S_, .f32⟩
  | .hbm, ⟨26, _⟩ => ⟨S1600000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x16, .f32⟩
  | .hbm, ⟨37, _⟩ => ⟨S50000x64, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .bf16⟩
  | .hbm, ⟨47, _⟩ => ⟨S1600000x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S50000x64, .f32⟩
  | .hbm, ⟨59, _⟩ => ⟨S50000x64, .bf16⟩
  | .hbm, ⟨60, _⟩ => ⟨S50000x64, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .bf16⟩
  | .hbm, ⟨70, _⟩ => ⟨S1600000x64, .f32⟩
  | .hbm, ⟨71, _⟩ => ⟨S_, .f32⟩
  | .hbm, ⟨72, _⟩ => ⟨S50000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S50000x64, .f32⟩
  | .hbm, ⟨82, _⟩ => ⟨S50000x64, .bf16⟩
  | .hbm, ⟨83, _⟩ => ⟨S50000x64, .bf16⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .bf16⟩
  | .hbm, ⟨93, _⟩ => ⟨S1600000x64, .f32⟩
  | .hbm, ⟨94, _⟩ => ⟨S_, .f32⟩
  | .hbm, ⟨95, _⟩ => ⟨S50000x64, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S50000x64, .f32⟩
  | .hbm, ⟨105, _⟩ => ⟨S50000x64, .bf16⟩
  | .hbm, ⟨106, _⟩ => ⟨S_, .i32⟩
  | .hbm, ⟨107, _⟩ => ⟨S_, .bf16⟩
  | .hbm, ⟨108, _⟩ => ⟨S50176x64, .bf16⟩
  | .hbm, ⟨109, _⟩ => ⟨S_, .i32⟩
  | .hbm, ⟨110, _⟩ => ⟨S_, .i32⟩
  | .hbm, ⟨111, _⟩ => ⟨S50176, .i32⟩
  | .hbm, ⟨112, _⟩ => ⟨S1x50176, .i32⟩
  | .hbm, ⟨113, _⟩ => ⟨S64x64, .f32⟩
  | .hbm, ⟨114, _⟩ => ⟨S64x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x64, .bf16⟩
  | .local _ .vmem, ⟨10, _⟩ => ⟨S2000x64, .bf16⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S2000x64, .bf16⟩
  | .local _ .vmem, ⟨15, _⟩ => ⟨S2000x64, .bf16⟩
  | .local _ .vmem, ⟨16, _⟩ => ⟨S2000x64, .bf16⟩
  | .local _ .vmem, ⟨17, _⟩ => ⟨S2000x64, .bf16⟩
  | .local _ .vmem, ⟨18, _⟩ => ⟨S64x64, .f32⟩
  | .local _ .vmem, ⟨19, _⟩ => ⟨S2000x1, .f32⟩
  | .local _ .vmem, ⟨20, _⟩ => ⟨S2000x1, .f32⟩
  | .local _ .vmem, ⟨21, _⟩ => ⟨S2000x64, .bf16⟩
  | .local _ .vmem, ⟨22, _⟩ => ⟨S2000x64, .bf16⟩
  | .local _ .vmem, ⟨23, _⟩ => ⟨S2000x64, .f32⟩
  | .local _ .vmem, ⟨24, _⟩ => ⟨S2000x64, .f32⟩
  | .local _ .vmem, ⟨25, _⟩ => ⟨S2000x64, .bf16⟩
  | .local _ .vmem, ⟨26, _⟩ => ⟨S2000x64, .bf16⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S2000x64, .bf16⟩
  | .local _ .vmem, ⟨31, _⟩ => ⟨S2000x64, .bf16⟩
  | .local _ .vmem, ⟨32, _⟩ => ⟨S2000x64, .bf16⟩
  | .local _ .vmem, ⟨33, _⟩ => ⟨S2000x64, .bf16⟩
  | .local _ .vmem, ⟨34, _⟩ => ⟨S64x64, .f32⟩
  | .local _ .vmem, ⟨35, _⟩ => ⟨S2000x1, .f32⟩
  | .local _ .vmem, ⟨36, _⟩ => ⟨S2000x1, .f32⟩
  | .local _ .vmem, ⟨37, _⟩ => ⟨S2000x64, .bf16⟩
  | .local _ .vmem, ⟨38, _⟩ => ⟨S2000x64, .bf16⟩
  | .local _ .vmem, ⟨39, _⟩ => ⟨S2000x64, .f32⟩
  | .local _ .vmem, ⟨40, _⟩ => ⟨S2000x64, .f32⟩
  | .local _ .vmem, ⟨41, _⟩ => ⟨S2000x64, .bf16⟩
  | .local _ .vmem, ⟨42, _⟩ => ⟨S2000x64, .bf16⟩
  | .local _ .vmem, ⟨43, _⟩ => ⟨S2000x1, .f32⟩
  | .local _ .vmem, ⟨44, _⟩ => ⟨S2000x1, .f32⟩
  | .local _ .vmem, ⟨45, _⟩ => ⟨S1x64, .f32⟩
  | .local _ .vmem, ⟨46, _⟩ => ⟨S2000x64, .bf16⟩
  | .local _ .vmem, ⟨47, _⟩ => ⟨S2000x64, .bf16⟩
  | .local _ .vmem, ⟨48, _⟩ => ⟨S1x7168, .i32⟩
  | .local _ .vmem, ⟨49, _⟩ => ⟨S1x7168, .i32⟩
  | .local _ .vmem, ⟨50, _⟩ => ⟨S7168x64, .bf16⟩
  | .local _ .vmem, ⟨51, _⟩ => ⟨S7168x64, .bf16⟩
  | .local _ .vmem, ⟨52, _⟩ => ⟨S64x64, .f32⟩
  | .local _ .vmem, ⟨53, _⟩ => ⟨S64x64, .f32⟩
  | .local _ .vmem, ⟨54, _⟩ => ⟨S64x1, .f32⟩
  | .local _ .vmem, ⟨55, _⟩ => ⟨S64x64, .f32⟩
  | .local _ .vmem, ⟨56, _⟩ => ⟨S64x16, .f32⟩
  | .local _ .vmem, ⟨57, _⟩ => ⟨S1x16, .f32⟩
  | .local _ .vmem, ⟨58, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_c_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_call0_v0 : Ref sig .tc := ⟨.hbm, 107, rfl⟩
abbrev main_v75 : Ref sig .tc := ⟨.hbm, 108, rfl⟩
abbrev main_c_19 : Ref sig .tc := ⟨.hbm, 109, rfl⟩
abbrev main_call1_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_scratch0 : Ref sig .tc := ⟨.vmem, 53, rfl⟩
abbrev cc6_scratch1 : Ref sig .tc := ⟨.vmem, 54, rfl⟩
abbrev cc7_stg0_0 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc7_sem0_0 : DmaSem sig := 53
abbrev cc7_sem1_0 : DmaSem sig := 54
abbrev cc7_sem2_0 : DmaSem sig := 55
abbrev cc7_sem3_0 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![7], ![false]⟩

def k6_cond2 (i : grid6.Coords) : BitVec 1 :=
  let arg0 : BitVec 32 := BitVec.ofNat 32 (i 0).val
  let c6_i32 : BitVec 32 := 6#32
  let v27 : BitVec 1 := Scalar.cmpi .eq arg0 c6_i32
  let v28 : BitVec 32 := Scalar.extui v27
  let c0_i32_13 : BitVec 32 := 0#32
  let v29 : BitVec 1 := Scalar.cmpi .ne v28 c0_i32_13
  v29

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x7168 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S7168x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S50000_S50000x1 : S50000.ShapeCasts S50000x1
  shapeCasts_S64_S1x64 : S64.ShapeCasts S1x64
  shapeCasts_S16_S1x16 : S16.ShapeCasts S1x16
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  pads_S50000x64_S50176x64_01760_000 : S50000x64.Pads (![0, 0] : Fin 2 → Nat) ![176, 0] ![0, 0] S50176x64
  h_S_ : 0 < S_.numel
  pads_S50000_S50176_01760 : S50000.Pads (![0] : Fin 1 → Nat) ![176] ![0] S50176
  shapeCasts_S50176_S1x50176 : S50176.ShapeCasts S1x50176
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x1_d0_w32 : S64x1.Iotas .tc 32 [0]
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  broadcasts_S64x1_S64x7168 : S64x1.Broadcasts S64x7168
  broadcasts_S1x7168_S64x7168 : S1x7168.Broadcasts S64x7168
  natLt_1_32 : 1 < 32
  inb_S7168x64_S7168x64_0_0 : ∀ a, (![0, 0] : Fin 2 → Nat) a + S7168x64.size a ≤ S7168x64.size a
  h_S7168x64 : 0 < S7168x64.numel
  shapeCasts_S7168x64_S7168x64 : S7168x64.ShapeCasts S7168x64
  reduces_S64x7168_S64 : S64x7168.Reduces [1] S64
  shapeCasts_S64_S64x1 : S64.ShapeCasts S64x1
  broadcasts_S64x1_S64x64 : S64x1.Broadcasts S64x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  scatter_S50000_S1600000x1_S1600000_n_0_0_1_wf : ScatterDims.WF S50000 S1600000x1 S1600000 [] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x64_S2000x64_1_0_0_1_n_n_wf : DotDims.WF S2000x64 S64x64 S2000x64 [1] [0] [0] [1] [] []
  dot_S64x7168_S7168x64_S64x64_1_0_0_1_n_n_wf : DotDims.WF S64x7168 S7168x64 S64x64 [1] [0] [0] [1] [] []
  dot_S64x64_S64x16_S64x16_1_0_0_1_n_n_wf : DotDims.WF S64x64 S64x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .bf16 = 32 ∨ (Rect.block (s := S50000x64) S2000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .bf16 = 32 ∨ (Rect.block (s := S50000x64) S2000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .bf16 = 32 ∨ (Rect.block (s := S50000x64) S2000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .bf16 = 32 ∨ (Rect.block (s := S50000x64) S2000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .bf16 = 32 ∨ (Rect.block (s := S50000x64) S2000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .bf16 = 32 ∨ (Rect.block (s := S50000x64) S2000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .bf16 = 32 ∨ (Rect.block (s := S50000x64) S2000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .bf16 = 32 ∨ (Rect.block (s := S50000x64) S2000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .bf16 = 32 ∨ (Rect.block (s := S50000x64) S2000x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x7168.size a ≤ S1x50176.size a
  hwx6_0 : ∀ i : grid6.Coords, EltTy.bits .i32 = 32 ∨ (Rect.block (s := S1x50176) S1x7168.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S7168x64.size a ≤ S50176x64.size a
  hwx6_1 : ∀ i : grid6.Coords, EltTy.bits .bf16 = 32 ∨ (Rect.block (s := S50176x64) S7168x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x16.size a ≤ S64x16.size a
  hwx7_1 : ∀ i : grid7.Coords, EltTy.bits .f32 = 32 ∨ (Rect.block (s := S64x16) S64x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x16.size a ≤ S64x16.size a
  hwx7_3 : ∀ i : grid7.Coords, EltTy.bits .f32 = 32 ∨ (Rect.block (s := S64x16) S64x16.size (cc7_transform_3 i) (hinb7_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S64x7168_S7168x64_S64x64_1_0_0_1_n_n : DotDims S64x7168 S7168x64 S64x64 where
  lhsContracting := [1]
  rhsContracting := [0]
  lhsNonContracting := [0]
  rhsNonContracting := [1]
  lhsBatch := []
  rhsBatch := []
  wf := dot_S64x7168_S7168x64_S64x64_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v19) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v77) S1x7168.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S7168x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v78) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v20) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S64x16.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x64 : Shape := ⟨2, ![50000, 64]⟩
abbrev S1600000x64 : Shape := ⟨2, ![1600000, 64]⟩
abbrev S50000x1 : Shape := ⟨2, ![50000, 1]⟩
abbrev S1x64 : Shape := ⟨2, ![1, 64]⟩
abbrev S64x1 : Shape := ⟨2, ![64, 1]⟩
abbrev S1x16 : Shape := ⟨2, ![1, 16]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S50000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S50000, .f32⟩
  | 28 => ⟨S_, .f32⟩
  | 29 => ⟨S50000, .f32⟩
  | 30 => ⟨S50000, .f32⟩
  | 31 => ⟨S50000, .f32⟩
  | 32 => ⟨S50000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S50000x64, .f32⟩
  | 66 => ⟨S1600000x1, .i32⟩
  | 67 => ⟨S50000x64, .f32⟩
  | 68 => ⟨S50000, .f32⟩
  | 69 => ⟨S50000x1, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S50000x64, .f32⟩
  | 113 => ⟨S1600000x1, .i32⟩
  | 114 => ⟨S50000x64, .f32⟩
  | 115 => ⟨S50000, .f32⟩
  | 116 => ⟨S50000x1, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S_, .i32⟩
  | _ => ⟨S50000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x1, .f32⟩
  | 28 => ⟨S1600000x64, .f32⟩
  | 29 => ⟨S1600000x64, .f32⟩
  | 30 => ⟨S_, .f32⟩
  | 31 => ⟨S50000x64, .f32⟩
  | 32 => ⟨S1600000x1, .i32⟩
  | 33 => ⟨S50000x64, .f32⟩
  | 34 => ⟨S50000, .f32⟩
  | 35 => ⟨S50000x1, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000, .f32⟩
  | 44 => ⟨S_, .f32⟩
  | 45 => ⟨S64, .f32⟩
  | 46 => ⟨S50000x1, .i32⟩
  | 47 => ⟨S64, .f32⟩
  | 48 => ⟨S_, .f32⟩
  | 49 => ⟨S64x64, .f32⟩
  | 50 => ⟨S50000x1, .i32⟩
  | 51 => ⟨S64x64, .f32⟩
  | 52 => ⟨S_, .f32⟩
  | 53 => ⟨S64, .f32⟩
  | 54 => ⟨S64, .f32⟩
  | 55 => ⟨S64x1, .f32⟩
  | 56 => ⟨S64x64, .f32⟩
  | 57 => ⟨S64x64, .f32⟩
  | 58 => ⟨S64x16, .f32⟩
  | 59 => ⟨S1x16, .f32⟩
  | 60 => ⟨S64x16, .f32⟩
  | 61 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call1_cst : Ref sig .tc := ⟨.hbm, 123, rfl⟩
abbrev main_call1_v0 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_19 : Ref sig .tc := ⟨.hbm, 136, rfl⟩
abbrev main_v100 : Ref sig .tc := ⟨.hbm, 137, rfl⟩
abbrev main_v101 : Ref sig .tc := ⟨.hbm, 138, rfl⟩
abbrev main_c_20 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_21 : Ref sig .tc := ⟨.hbm, 146, rfl⟩
abbrev main_v108 : Ref sig .tc := ⟨.hbm, 147, rfl⟩
abbrev main_v109 : Ref sig .tc := ⟨.hbm, 148, rfl⟩
abbrev main_c_22 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_23 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_24 : Ref sig .tc := ⟨.hbm, 170, rfl⟩
abbrev main_v129 : Ref sig .tc := ⟨.hbm, 171, rfl⟩
abbrev main_cst_25 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_26 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_27 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x16_S64x16_1_0_0_1_n_n_wf : DotDims.WF S64x64 S64x16 S64x16 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf

class Facts : Prop extends Facts₀ where

variable [Facts]
-- ==== Proof.K.RegLib.lean ====
import proofs.«430582_j3058016715240_3_alg».proof.Proof.Gen.Kernel.Launch
import proofs.«430582_j3058016715240_3_alg».proof.Proof.Gen.Kernel.Skeleton
import proofs.«430582_j3058016715240_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel.Gen Idealize.ShloMosaic Idealize.ShloMosaic.Pipeline Idealize.SL Idealize.SL.BI Idealize.SL.BI.BIBase
open scoped Idealize.SL.BI
variable {F : FTy → Type} [FloatOps F] {Λ : Idealize.SL.Sem.Labels} {cfg : Cfg sig Λ} {c : Dev nD}

theorem Dat.before_in (dat : Dat τ (Elt F) Unit ℕ (UR sig nD τ) ℕ cfg c) (w : Fin cfg.W)
    (hX : ∀ t d, dat.fetched w t d = dat.after w t := by exact fun _ _ => rfl) (hw : (cfg.win w).isOut = false := by rfl)
    (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (t : Fin cfg.N) (d) : dat.before w t d = dat.after w t :=
  (dat.before_in_eq_fetched w hw hlive hclip (fun t => by rw [← hX t (dat.after w t)]; exact (cfg.win w).cut_fill _ _ _) t d).trans (hX t d)

local notation "𝕄" => MT nD τ sig Unit (Elt F) ℕ (UR sig nD τ) ℕ

theorem held {c : Thread nD τ} {sp sh e} {m : Memref sig c.2.kind sp sh e} {q} {f : m.view.ty.Contents (Elt F)} :
    (m.view.loc c ↦[m.view.set]{q} f : sProp 𝕄)
      ⊢ iprop(∃ g, ⌜m.view.read (Elt F) g = m.view.read (Elt F) f⌝ ∗ (m.view.loc c ↦[m.view.set]{q} g)) :=
  owns_intro c m q f

end Cert.Kernel.Hand
end
-- ==== Proof.K.Reg0.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S2000x1 := Rect.unit (s := S2000x1) ![0, 0] S2000x1.size inb_S2000x1_S2000x1_0_0
abbrev r0_3 : Rect S2000x64 := Rect.unit (s := S2000x64) ![0, 0] S2000x64.size inb_S2000x64_S2000x64_0_0

def out0_3 (x0 : Vec F S2000x128 .f32) (x1 : Vec F S128x64 .f32) (x2 : Vec F S2000x1 .f32) : Vec F S2000x64 .bf16 :=
  View.canon [⟨r0_3, k0_pay1 (View.ld x0 r0_0) (View.ld x1 r0_1) (View.ld x2 r0_2)⟩]

/-- The body leaves the inputs unchanged and stores `out0_3` of them over the whole output. -/
theorem sound_kernel0 (c : Dev nD) (E : Set ℕ) (i : grid0.Coords)
    (a0 : Memref sig .tc .vmem S2000x128 .f32) (h0 : a0.IsWhole) (a1 : Memref sig .tc .vmem S128x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc0__linear_kernel i a0 h0 a1 h1 a2 h2 a3 h3) fun _ =>
        iprop(P ∗ Q ∗ owns c a0 fullShare x0 ∗ owns c a1 fullShare x1 ∗ owns c a2 fullShare x2 ∗ owns c a3 fullShare (out0_3 x0 x1 x2)) := by
  simp only [cc0__linear_kernel_eq_skeleton]; unfold cc0__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- The body's triple at the inputs' blocks; the rest is framed. -/
theorem body_obligation0 (c : Dev nD) : BodyObligation (dat0 (F := F) V c) (defs₀ (F := F)) Variants.none () Set.univ := fun t => by
  rw [bigSep_W0, bigSep_W0]
  simp only [Dat.before_in (dat0 V c) 0, Dat.before_in (dat0 V c) 1, Dat.before_in (dat0 V c) 2]
  dsimp only [dat0]
  change _ ⊢ wp _ _ _ (bodyAt0 t) _
  iintro ⟨HP, HQ, ⟨%_, H0⟩, ⟨%_, H1⟩, ⟨%_, H2⟩, ⟨%_, H3⟩⟩
  iapply sound_kernel0
  iframe
  iexact HQ

end Cert.Kernel.Hand
end
-- ==== Proof.K.Reg1.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0
abbrev r1_1 : Rect S2000x1 := Rect.unit (s := S2000x1) ![0, 0] S2000x1.size inb_S2000x1_S2000x1_0_0
abbrev r1_2 : Rect S1x64 := Rect.unit (s := S1x64) ![0, 0] S1x64.size inb_S1x64_S1x64_0_0

def out1_4 (x0 : Vec F S2000x64 .f32) (x1 : Vec F S2000x64 .bf16) (x2 : Vec F S2000x1 .f32) (x3 : Vec F S1x64 .f32) : Vec F S2000x64 .bf16 :=
  View.canon [⟨r1_0, k1_pay1 (View.ld x1 r1_0) (View.ld x0 r1_0) (View.ld x2 r1_1) (View.ld x3 r1_2)⟩]

/-- The body leaves the inputs unchanged and stores `out1_4` of them over the whole output. -/
theorem sound_kernel1 (c : Dev nD) (E : Set ℕ) (i : grid1.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc1__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out1_4 x0 x1 x2 x3)) := by
  simp only [cc1__combine_kernel_eq_skeleton]; unfold cc1__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

/-- The body's triple at the inputs' blocks; the rest is framed. -/
theorem body_obligation1 (c : Dev nD) : BodyObligation (dat1 (F := F) V c) (defs₀ (F := F)) Variants.none () Set.univ := fun t => by
  rw [bigSep_W1, bigSep_W1]
  simp only [Dat.before_in (dat1 V c) 0, Dat.before_in (dat1 V c) 1, Dat.before_in (dat1 V c) 2, Dat.before_in (dat1 V c) 3]
  dsimp only [dat1]
  change _ ⊢ wp _ _ _ (bodyAt1 t) _
  iintro ⟨HP, HQ, ⟨%_, H0⟩, ⟨%_, H1⟩, ⟨%_, H2⟩, ⟨%_, H3⟩, ⟨%_, H4⟩⟩
  iapply sound_kernel1
  iframe
  iexact HQ

end Cert.Kernel.Hand
end
-- ==== Proof.K.Reg2.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit (s := S2000x64) ![0, 0] S2000x64.size inb_S2000x64_S2000x64_0_0
abbrev r2_1 : Rect S64x64 := Rect.unit (s := S64x64) ![0, 0] S64x64.size inb_S64x64_S64x64_0_0
abbrev r2_2 : Rect S2000x1 := Rect.unit (s := S2000x1) ![0, 0] S2000x1.size inb_S2000x1_S2000x1_0_0

def out2_3 (x0 : Vec F S2000x64 .bf16) (x1 : Vec F S64x64 .f32) (x2 : Vec F S2000x1 .f32) : Vec F S2000x64 .bf16 :=
  View.canon [⟨r2_0, k2_pay1 (View.ld x0 r2_0) (View.ld x1 r2_1) (View.ld x2 r2_2)⟩]

/-- The body leaves the inputs unchanged and stores `out2_3` of them over the whole output. -/
theorem sound_kernel2 (c : Dev nD) (E : Set ℕ) (i : grid2.Coords)
    (a0 : Memref sig .tc .vmem S2000x64 .bf16) (h0 : a0.IsWhole) (a1 : Memref sig .tc .vmem S64x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc2__linear_kernel i a0 h0 a1 h1 a2 h2 a3 h3) fun _ =>
        iprop(P ∗ Q ∗ owns c a0 fullShare x0 ∗ owns c a1 fullShare x1 ∗ owns c a2 fullShare x2 ∗ owns c a3 fullShare (out2_3 x0 x1 x2)) := by
  simp only [cc2__linear_kernel_eq_skeleton]; unfold cc2__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2_3 (iblk2 V c 0 t) (iblk2 V c 1 t) (iblk2 V c 2 t) := by dsimp only [dat2]

/-- The body's triple at the inputs' blocks; the rest is framed. -/
theorem body_obligation2 (c : Dev nD) : BodyObligation (dat2 (F := F) V c) (defs₀ (F := F)) Variants.none () Set.univ := fun t => by
  rw [bigSep_W2, bigSep_W2]
  simp only [Dat.before_in (dat2 V c) 0, Dat.before_in (dat2 V c) 1, Dat.before_in (dat2 V c) 2]
  dsimp only [dat2]
  change _ ⊢ wp _ _ _ (bodyAt2 t) _
  iintro ⟨HP, HQ, ⟨%_, H0⟩, ⟨%_, H1⟩, ⟨%_, H2⟩, ⟨%_, H3⟩⟩
  iapply sound_kernel2
  iframe
  iexact HQ

end Cert.Kernel.Hand
end
-- ==== Proof.K.Reg3.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_4 (x0 : Vec F S2000x64 .f32) (x1 : Vec F S2000x64 .bf16) (x2 : Vec F S2000x1 .f32) (x3 : Vec F S1x64 .f32) : Vec F S2000x64 .bf16 :=
  View.canon [⟨r3_0, k3_pay1 (View.ld x1 r3_0) (View.ld x0 r3_0) (View.ld x2 r3_1) (View.ld x3 r3_2)⟩]

/-- The body leaves the inputs unchanged and stores `out3_4` of them over the whole output. -/
theorem sound_kernel3 (c : Dev nD) (E : Set ℕ) (i : grid3.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc3__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out3_4 x0 x1 x2 x3)) := by
  simp only [cc3__combine_kernel_eq_skeleton]; unfold cc3__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = out3_4 (iblk3 V c 0 t) (iblk3 V c 1 t) (iblk3 V c 2 t) (iblk3 V c 3 t) := by dsimp only [dat3]

/-- The body's triple at the inputs' blocks; the rest is framed. -/
theorem body_obligation3 (c : Dev nD) : BodyObligation (dat3 (F := F) V c) (defs₀ (F := F)) Variants.none () Set.univ := fun t => by
  rw [bigSep_W3, bigSep_W3]
  simp only [Dat.before_in (dat3 V c) 0, Dat.before_in (dat3 V c) 1, Dat.before_in (dat3 V c) 2, Dat.before_in (dat3 V c) 3]
  dsimp only [dat3]
  change _ ⊢ wp _ _ _ (bodyAt3 t) _
  iintro ⟨HP, HQ, ⟨%_, H0⟩, ⟨%_, H1⟩, ⟨%_, H2⟩, ⟨%_, H3⟩, ⟨%_, H4⟩⟩
  iapply sound_kernel3
  iframe
  iexact HQ

end Cert.Kernel.Hand
end
-- ==== Proof.K.Reg4.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x64 := Rect.unit (s := S2000x64) ![0, 0] S2000x64.size inb_S2000x64_S2000x64_0_0
abbrev r4_1 : Rect S64x64 := Rect.unit (s := S64x64) ![0, 0] S64x64.size inb_S64x64_S64x64_0_0
abbrev r4_2 : Rect S2000x1 := Rect.unit (s := S2000x1) ![0, 0] S2000x1.size inb_S2000x1_S2000x1_0_0

def out4_3 (x0 : Vec F S2000x64 .bf16) (x1 : Vec F S64x64 .f32) (x2 : Vec F S2000x1 .f32) : Vec F S2000x64 .bf16 :=
  View.canon [⟨r4_0, k4_pay1 (View.ld x0 r4_0) (View.ld x1 r4_1) (View.ld x2 r4_2)⟩]

/-- The body leaves the inputs unchanged and stores `out4_3` of them over the whole output. -/
theorem sound_kernel4 (c : Dev nD) (E : Set ℕ) (i : grid4.Coords)
    (a0 : Memref sig .tc .vmem S2000x64 .bf16) (h0 : a0.IsWhole) (a1 : Memref sig .tc .vmem S64x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc4__linear_kernel i a0 h0 a1 h1 a2 h2 a3 h3) fun _ =>
        iprop(P ∗ Q ∗ owns c a0 fullShare x0 ∗ owns c a1 fullShare x1 ∗ owns c a2 fullShare x2 ∗ owns c a3 fullShare (out4_3 x0 x1 x2)) := by
  simp only [cc4__linear_kernel_eq_skeleton]; unfold cc4__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

/-- The body's triple at the inputs' blocks; the rest is framed. -/
theorem body_obligation4 (c : Dev nD) : BodyObligation (dat4 (F := F) V c) (defs₀ (F := F)) Variants.none () Set.univ := fun t => by
  rw [bigSep_W4, bigSep_W4]
  simp only [Dat.before_in (dat4 V c) 0, Dat.before_in (dat4 V c) 1, Dat.before_in (dat4 V c) 2]
  dsimp only [dat4]
  change _ ⊢ wp _ _ _ (bodyAt4 t) _
  iintro ⟨HP, HQ, ⟨%_, H0⟩, ⟨%_, H1⟩, ⟨%_, H2⟩, ⟨%_, H3⟩⟩
  iapply sound_kernel4
  iframe
  iexact HQ

end Cert.Kernel.Hand
end
-- ==== Proof.K.Reg5.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x64 := Rect.unit (s := S2000x64) ![0, 0] S2000x64.size inb_S2000x64_S2000x64_0_0
abbrev r5_1 : Rect S2000x1 := Rect.unit (s := S2000x1) ![0, 0] S2000x1.size inb_S2000x1_S2000x1_0_0
abbrev r5_2 : Rect S1x64 := Rect.unit (s := S1x64) ![0, 0] S1x64.size inb_S1x64_S1x64_0_0

def out5_4 (x0 : Vec F S2000x64 .f32) (x1 : Vec F S2000x64 .bf16) (x2 : Vec F S2000x1 .f32) (x3 : Vec F S1x64 .f32) : Vec F S2000x64 .bf16 :=
  View.canon [⟨r5_0, k5_pay1 (View.ld x1 r5_0) (View.ld x0 r5_0) (View.ld x2 r5_1) (View.ld x3 r5_2)⟩]

/-- The body leaves the inputs unchanged and stores `out5_4` of them over the whole output. -/
theorem sound_kernel5 (c : Dev nD) (E : Set ℕ) (i : grid5.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc5__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out5_4 x0 x1 x2 x3)) := by
  simp only [cc5__combine_kernel_eq_skeleton]; unfold cc5__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

/-- The body's triple at the inputs' blocks; the rest is framed. -/
theorem body_obligation5 (c : Dev nD) : BodyObligation (dat5 (F := F) V c) (defs₀ (F := F)) Variants.none () Set.univ := fun t => by
  rw [bigSep_W5, bigSep_W5]
  simp only [Dat.before_in (dat5 V c) 0, Dat.before_in (dat5 V c) 1, Dat.before_in (dat5 V c) 2, Dat.before_in (dat5 V c) 3]
  dsimp only [dat5]
  change _ ⊢ wp _ _ _ (bodyAt5 t) _
  iintro ⟨HP, HQ, ⟨%_, H0⟩, ⟨%_, H1⟩, ⟨%_, H2⟩, ⟨%_, H3⟩, ⟨%_, H4⟩⟩
  iapply sound_kernel5
  iframe
  iexact HQ

end Cert.Kernel.Hand
end
-- ==== Proof.K.Reg6Runs.lean ====
import proofs.«430582_j3058016715240_3_alg».proof.Proof.Gen.Kernel.Launch
import proofs.«430582_j3058016715240_3_alg».proof.Proof.Gen.Kernel.Skeleton
import proofs.«430582_j3058016715240_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 7 = 0 :=
  (by decide +kernel : ∀ t : Fin grid6.N, cond6_0 (grid6.coords t) ↔ t.val % 7 = 0)

abbrev cond6_1 (i : grid6.Coords) : Prop := k6_cond2 i = 1#1
theorem hcond6_1 : ∀ t : Fin cfg6.N, cond6_1 (grid6.coords t) ↔ t.val % 7 = 6 :=
  (by decide +kernel : ∀ t : Fin grid6.N, cond6_1 (grid6.coords t) ↔ t.val % 7 = 6)

theorem hz6 : (![0, 0] : Fin 2 → Nat) = fun _ => 0 := funext fun a => by revert a; decide

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev scM6_0 : Memref sig .tc .vmem S64x64 .f32 := Memref.whole cc6_scratch0
abbrev scM6_1 : Memref sig .tc .vmem S64x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

-- A store through the whole buffer, made last, leaves its payload whatever the buffer held.
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons.mpr (.inl rfl), by show y ∈ (Rect.whole S).set; rw [Rect.set_whole]; exact Finset.mem_univ y⟩),
    View.canon_cons_unit_zero rfl]

end Cert.Kernel.Hand
end
-- ==== Proof.K.Reg6RunA.lean ====
import proofs.«430582_j3058016715240_3_alg».proof.Proof.K.Reg6Runs
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
-- Every store fills its whole buffer, so each buffer ends at the payload of its last store, read off the entry contents.
theorem kernelRun6 (c : Dev nD) (i : grid6.Coords) (hx : cond6_0 i → ¬cond6_1 i) (arg1 : Memref sig .tc .vmem S1x7168 .i32) (harg1 : arg1.IsWhole) (arg2 : Memref sig .tc .vmem S7168x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole)
    (x0 : Vec F S1x7168 .i32) (x1 : Vec F S7168x64 .bf16) (x2 : Vec F S64x64 .f32) (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (if cond6_1 i then k6_pay6 (k6_pay4 x0 x1 (if cond6_0 i then k6_pay1 else xs0)) (k6_pay5 x0 (if cond6_0 i then k6_pay2 else xs1)) else x2)
            ∗ owns (c : Thread nD τ) arg4 fullShare (k6_pay4 x0 x1 (if cond6_0 i then k6_pay1 else xs0))
            ∗ owns (c : Thread nD τ) arg5 fullShare (k6_pay5 x0 (if cond6_0 i then k6_pay2 else xs1))) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  by_cases hc0 : cond6_0 i <;> [simp only [if_pos hc0]; simp only [if_neg hc0]] <;> (by_cases hc1 : cond6_1 i <;> [simp only [if_pos hc1]; simp only [if_neg hc1]]) <;> try exact absurd hc1 (hx hc0)
  all_goals
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]; (iexists _; isplitr; swap; iexact H0); rotate_left
    isplitl [H1]; (iexists _; isplitr; swap; iexact H1); rotate_left
    isplitl [H2]; (iexists _; isplitr; swap; iexact H2); rotate_left
    isplitl [HS0]; (iexists _; isplitr; swap; iexact HS0); rotate_left
    iexists _; isplitr; swap; iexact HS1
    all_goals
      ipureintro; try sl_unfold_words
      simp only [read_writes_whole (S := S64x64) _ _ hz6, read_writes_whole (S := S64x1) _ _ hz6, View.readCov_unit_zero (S := S64x64) _ hz6, View.readCov_unit_zero (S := S64x1) _ hz6, View.readAt_eq_ld, harg1.read_unread, harg2.read_unread, harg3.read_unread, harg4.read_unread, harg5.read_unread, View.ld_unit_zero (S := S1x7168) hz6, View.ld_unit_zero (S := S7168x64) hz6, View.ld_unit_zero (S := S64x64) hz6, View.ld_unit_zero (S := S64x1) hz6]

end Cert.Kernel.Hand
end
-- ==== Proof.K.Reg6.lean ====
import proofs.«430582_j3058016715240_3_alg».proof.Proof.K.Reg6RunA
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The accumulator and the count after point n: reset at the first point, then one block's share added per point.
def acc6 (c : Dev nD) : (n : ℕ) → n < cfg6.N → Vec F S64x64 .f32 × Vec F S64x1 .f32
  | 0, h => (k6_pay4 (iblk6 V c 0 ⟨0, h⟩) (iblk6 V c 1 ⟨0, h⟩) k6_pay1, k6_pay5 (iblk6 V c 0 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 0 ⟨n + 1, h⟩) (acc6 c n (Nat.lt_of_succ_lt h)).2)

def prev6 (c : Dev nD) (n : ℕ) (p : Vec F S64x64 .f32 × Vec F S64x1 .f32) : Prop :=
  ∀ m (hm : m < cfg6.N), n = m + 1 → p = acc6 V c m hm

theorem acc6_eq (c : Dev nD) (t : Fin cfg6.N) (p : Vec F S64x64 .f32 × Vec F S64x1 .f32) (hp : prev6 V c t.val p) :
    acc6 V c t.val t.isLt = (k6_pay4 (iblk6 V c 0 t) (iblk6 V c 1 t) (if cond6_0 (grid6.coords t) then k6_pay1 else p.1),
      k6_pay5 (iblk6 V c 0 t) (if cond6_0 (grid6.coords t) then k6_pay2 else p.2)) := by
  obtain ⟨n, hn⟩ := t
  cases n with
  | zero => rw [if_pos ((hcond6_0 _).mpr rfl), if_pos ((hcond6_0 _).mpr rfl)]; rfl
  | succ n =>
    have hN : n + 1 < 7 := lt_of_lt_of_eq hn N_6
    have h0 : ¬cond6_0 (grid6.coords ⟨n + 1, hn⟩) := fun h => by have := (hcond6_0 _).mp h; dsimp only at this; omega
    rw [if_neg h0, if_neg h0, hp n (Nat.lt_of_succ_lt hn) rfl]; rfl

-- The invariant before point n: the accumulator and the count at what point n - 1 left (at anything when n = 0).
def PhiS6 (c : Dev nD) (n : ℕ) : sProp 𝕄 :=
  iprop(iprop(iprop(∃ p, ⌜prev6 V c n p⌝ ∗ owns (c : Thread nD τ) scM6_0 fullShare p.1 ∗ owns (c : Thread nD τ) scM6_1 fullShare p.2)
      ∗ Pipeline.scopedRestBut (Ix := Unit) (Name := ℕ) (U := UR sig nD τ) (Lvl := ℕ) (Val := Elt F) spec6 c [cc6_scratch0, cc6_scratch1]) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay6 (acc6 V c t.val t.isLt).1 (acc6 V c t.val t.isLt).2
  Φ t := PhiS6 V c t.val
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) : (dat6 V c).after 2 t = k6_pay6 (acc6 V c t.val t.isLt).1 (acc6 V c t.val t.isLt).2 := by dsimp only [dat6]

theorem before6_0 (c : Dev nD) (t : Fin cfg6.N) (d) : (dat6 V c).before 0 t d = iblk6 V c 0 t :=
  ((dat6 V c).before_fetched 0 t (fetch6_0 t) d).trans rfl
theorem before6_1 (c : Dev nD) (t : Fin cfg6.N) (d) : (dat6 V c).before 1 t d = iblk6 V c 1 t :=
  ((dat6 V c).before_fetched 1 t (fetch6_1 t) d).trans rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.succ ∗ (dat6 V c).owesAt () t.succ ∗ (dat6 V c).leavesExact 0 t ∗ (dat6 V c).leavesExact 1 t ∗ (dat6 V c).leavesExact 2 t)) := by
  unfold bodyAt6
  simp only [before6_0, before6_1]
  rw [show (dat6 V c).owesAt () t.succ = (dat6 V c).owesAt () t.castSucc from rfl]
  rw [show (dat6 V c).Φ t.succ = PhiS6 V c (t.val + 1) from rfl, show (dat6 V c).Φ t.castSucc = PhiS6 V c t.val from rfl]
  rw [show (dat6 V c).leavesExact 0 t = owns (c : Thread nD τ) (st6_0 t) fullShare (iblk6 V c 0 t) from by
      unfold Dat.leavesExact; rw [liveAt6_0 t]; rfl]
  rw [show (dat6 V c).leavesExact 1 t = owns (c : Thread nD τ) (st6_1 t) fullShare (iblk6 V c 1 t) from by
      unfold Dat.leavesExact; rw [liveAt6_1 t]; rfl]
  have hx : cond6_0 (grid6.coords t) → ¬cond6_1 (grid6.coords t) := fun h0 h1 => by
    have := (hcond6_0 t).mp h0; have := (hcond6_1 t).mp h1; omega
  unfold PhiS6
  iintro ⟨⟨⟨⟨%p, %hp, HS0, HS1⟩, HR⟩, Hg⟩, Ho, ⟨%d0, H0⟩, ⟨%d1, H1⟩, ⟨%d2, H2⟩⟩
  have e := acc6_eq V c t p hp
  iapply (kernelRun6 c (grid6.coords t) hx _ _ _ _ _ _ _ _ _ _ (iblk6 V c 0 t) (iblk6 V c 1 t) ((dat6 V c).before 2 t d2) p.1 p.2 Set.univ _)
  iframe H0 H1 H2 HS0 HS1
  iintro ⟨H0, H1, H2, HS0, HS1⟩
  iframe HR Hg Ho H0 H1
  isplitl [HS0 HS1]
  · iexists (_, _); isplitr
    · ipureintro; intro m hm h; cases h; exact e.symm
    iframe
  by_cases h1 : cond6_1 (grid6.coords t)
  · rw [show (dat6 V c).leavesExact 2 t = owns (c : Thread nD τ) (st6_2 t) fullShare ((dat6 V c).after 2 t) from by
      unfold Dat.leavesExact; rw [liveAt6_2 t h1], after6_2, e, if_pos h1]
    iexact H2
  · rw [Dat.leavesExact_idle (dat6 V c) 2 t (idleAt6_2 t h1) (noFlush6_2 t h1), if_neg h1]
    iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 from rfl, PhiA6_eq]; unfold PhiS6
  iintro ⟨⟨⟨⟨%a, Ha⟩, ⟨%s, Hs⟩⟩, HR⟩, Hg⟩
  iframe HR Hg
  iexists (a, s); isplitr
  · ipureintro; intro m hm h; cases h
  iframe

theorem hout6 (c : Dev nD) : (dat6 V c).Φ (Fin.last cfg6.N) ⊢ Pipeline.ΦA spec6 c := by
  rw [show (dat6 V c).Φ (Fin.last cfg6.N) = PhiS6 V c (Fin.last cfg6.N).val from rfl, PhiA6_eq]; unfold PhiS6
  iintro ⟨⟨⟨%p, -, Ha, Hs⟩, HR⟩, Hg⟩
  iframe HR Hg
  isplitl [Ha]
  · iexists _; iexact Ha
  · iexists _; iexact Hs

end Cert.Kernel.Hand
end
-- ==== Proof.K.Reg7.lean ====
import proofs.«430582_j3058016715240_3_alg».proof.Proof.K.RegLib
noncomputable section
namespace Cert.Kernel.Hand
open Cert.Kernel.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S64x16 := Rect.unit (s := S64x16) ![0, 0] S64x16.size inb_S64x16_S64x16_0_0
abbrev r7_1 : Rect S64x64 := Rect.unit (s := S64x64) ![0, 0] S64x64.size inb_S64x64_S64x64_0_0
abbrev r7_2 : Rect S1x16 := Rect.unit (s := S1x16) ![0, 0] S1x16.size inb_S1x16_S1x16_0_0

def out7_3 (x0 : Vec F S64x64 .f32) (x1 : Vec F S64x16 .f32) (x2 : Vec F S1x16 .f32) : Vec F S64x16 .f32 :=
  View.canon [⟨r7_0, k7_pay1 (View.ld x0 r7_1) (View.ld x1 r7_0) (View.ld x2 r7_2)⟩]

/-- The body leaves the inputs unchanged and stores `out7_3` of them over the whole output. -/
theorem sound_kernel7 (c : Dev nD) (E : Set ℕ) (i : grid7.Coords)
    (a0 : Memref sig .tc .vmem S64x64 .f32) (h0 : a0.IsWhole) (a1 : Memref sig .tc .vmem S64x16 .f32) (h1 : a1.IsWhole)
    (a2 : Memref sig .tc .vmem S1x16 .f32) (h2 : a2.IsWhole) (a3 : Memref sig .tc .vmem S64x16 .f32) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc7__classifier_kernel i a0 h0 a1 h1 a2 h2 a3 h3) fun _ =>
        iprop(P ∗ Q ∗ owns c a0 fullShare x0 ∗ owns c a1 fullShare x1 ∗ owns c a2 fullShare x2 ∗ owns c a3 fullShare (out7_3 x0 x1 x2)) := by
  simp only [cc7__classifier_kernel_eq_skeleton]; unfold cc7__classifier_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S64x16.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7_3 (iblk7 V c 0 t) (iblk7 V c 1 t) (iblk7 V c 2 t) := by dsimp only [dat7]

/-- The body's triple at the inputs' blocks; the rest is framed. -/
theorem body_obligation7 (c : Dev nD) : BodyObligation (dat7 (F := F) V c) (defs₀ (F := F)) Variants.none () Set.univ := fun t => by
  rw [bigSep_W7, bigSep_W7]
  simp only [Dat.before_in (dat7 V c) 0, Dat.before_in (dat7 V c) 1, Dat.before_in (dat7 V c) 2]
  dsimp only [dat7]
  change _ ⊢ wp _ _ _ (bodyAt7 t) _
  iintro ⟨HP, HQ, ⟨%_, H0⟩, ⟨%_, H1⟩, ⟨%_, H2⟩, ⟨%_, H3⟩⟩
  iapply sound_kernel7
  iframe
  iexact HQ

end Cert.Kernel.Hand
end
-- ==== Proof.K.RunFold.lean ====
import proofs.«430582_j3058016715240_3_alg».proof.Proof.Gen.Kernel.Regions
import proofs.«430582_j3058016715240_3_alg».proof.Proof.K.Reg0
import proofs.«430582_j3058016715240_3_alg».proof.Proof.K.Reg1
import proofs.«430582_j3058016715240_3_alg».proof.Proof.K.Reg2
import proofs.«430582_j3058016715240_3_alg».proof.Proof.K.Reg3
import proofs.«430582_j3058016715240_3_alg».proof.Proof.K.Reg4
import proofs.«430582_j3058016715240_3_alg».proof.Proof.K.Reg5
import proofs.«430582_j3058016715240_3_alg».proof.Proof.K.Reg6
import proofs.«430582_j3058016715240_3_alg».proof.Proof.K.Reg7
import Idealize.ShloMosaic.Lib.Pipeline.FrameSuffix
noncomputable section
namespace Cert.Kernel.Hand
open Cert.Kernel Cert.Kernel.Gen
open Idealize.ShloMosaic Idealize.ShloMosaic.TcCoe
open Idealize.ShloMosaic.Pipeline (Dat)
variable {F : FTy → Type} [FloatOps F]

section
variable {cfg : Pipeline.Cfg sig Λ₀} {c : Dev nD} (Wi : Valuation τ sig (Elt F)) (dat : Dat τ (Elt F) Unit ℕ (UR sig nD τ) ℕ cfg c)

-- The valuation after a region: its arrays at their last contents, every other reference unchanged.
abbrev exitOf : Valuation τ sig (Elt F) := Pipeline.withArrays cfg.spec c Wi fun w => dat.arrAt w cfg.N

theorem exitOf_arr (hinj : Function.Injective (Pipeline.arrRef cfg.spec)) (w : Fin cfg.W) :
    exitOf Wi dat (Proc.devRef .tc (Pipeline.arrRef cfg.spec w)) = dat.arrAt w cfg.N :=
  Pipeline.withArrays_arr _ hinj c _ _ w

-- An input's array stays at its entry contents, so only the output's array changes.
theorem exitOf_keep (hinj : Function.Injective (Pipeline.arrRef cfg.spec))
    (hA : ∀ w, dat.A w = Wi (Proc.devRef .tc (Pipeline.arrRef cfg.spec w))) {o r : Ref sig .tc}
    (ho : ∀ w, Pipeline.arrRef cfg.spec w ≠ o → (cfg.win w).isOut = false) (h : r ≠ o) :
    exitOf Wi dat (Proc.devRef .tc r) = Wi (Proc.devRef .tc r) := by
  by_cases hr : ∃ w, Pipeline.arrRef cfg.spec w = r
  · obtain ⟨w, rfl⟩ := hr
    exact (exitOf_arr Wi dat hinj w).trans ((dat.arrAt_in w (ho w h) _).trans (hA w))
  · exact Pipeline.withArrays_of_ne _ c _ _ r fun w e => hr ⟨w, e⟩
end

-- A valuation as a function of references.
abbrev tcOf (W : Dev nD → Valuation τ sig (Elt F)) (c : Dev nD) (b : Ref sig .tc) :
    Buf (Elt F) ((c : Thread nD τ).loc b) := W c b

variable (m : (ℓ : Loc nD τ sig) → Buf (Elt F) ℓ) (ρ : Dev nD → PrngReg)

-- W0 is the launch's memory; each later WJ is what the J-th item of @main leaves from W(J-1).
abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcOf (W1 m ρ)
def W2 (c : Dev nD) : Valuation τ sig (Elt F) := exitOf (W1 m ρ c) (dat0 (V1 m ρ) c)
abbrev W3 : Dev nD → Valuation τ sig (Elt F) := fun c => StableHlo.after hostOps1 (W2 m ρ c)
abbrev V3 := tcOf (W3 m ρ)
def W4 (c : Dev nD) : Valuation τ sig (Elt F) := exitOf (W3 m ρ c) (dat1 (V3 m ρ) c)
abbrev V4 := tcOf (W4 m ρ)
def W5 (c : Dev nD) : Valuation τ sig (Elt F) := exitOf (W4 m ρ c) (dat2 (V4 m ρ) c)
abbrev W6 : Dev nD → Valuation τ sig (Elt F) := fun c => StableHlo.after hostOps3 (W5 m ρ c)
abbrev V6 := tcOf (W6 m ρ)
def W7 (c : Dev nD) : Valuation τ sig (Elt F) := exitOf (W6 m ρ c) (dat3 (V6 m ρ) c)
abbrev V7 := tcOf (W7 m ρ)
def W8 (c : Dev nD) : Valuation τ sig (Elt F) := exitOf (W7 m ρ c) (dat4 (V7 m ρ) c)
abbrev W9 : Dev nD → Valuation τ sig (Elt F) := fun c => StableHlo.after hostOps5 (W8 m ρ c)
abbrev V9 := tcOf (W9 m ρ)
def W10 (c : Dev nD) : Valuation τ sig (Elt F) := exitOf (W9 m ρ c) (dat5 (V9 m ρ) c)
abbrev W11 : Dev nD → Valuation τ sig (Elt F) := fun c => StableHlo.after hostOps6 (W10 m ρ c)
abbrev W12 : Dev nD → Valuation τ sig (Elt F) := fun c => StableHlo.after hostOps6_1 (W11 m ρ c)
abbrev W13 : Dev nD → Valuation τ sig (Elt F) := fun c => StableHlo.after hostOps6_2 (W12 m ρ c)
abbrev W14 : Dev nD → Valuation τ sig (Elt F) := fun c => StableHlo.after hostOps6_3 (W13 m ρ c)
abbrev W15 : Dev nD → Valuation τ sig (Elt F) := fun c => StableHlo.after hostOps6_4 (W14 m ρ c)
abbrev V15 := tcOf (W15 m ρ)
def W16 (c : Dev nD) : Valuation τ sig (Elt F) := exitOf (W15 m ρ c) (dat6 (V15 m ρ) c)
abbrev V16 := tcOf (W16 m ρ)
def W17 (c : Dev nD) : Valuation τ sig (Elt F) := exitOf (W16 m ρ c) (dat7 (V16 m ρ) c)

variable (c : Dev nD) (r : Ref sig .tc)

theorem W2_arr (w : Fin cfg0.W) :
    W2 m ρ c (Proc.devRef .tc (Pipeline.arrRef spec0 w)) = (dat0 (V1 m ρ) c).arrAt w cfg0.N :=
  exitOf_arr _ _ launch0.win.arr_inj w
theorem W4_arr (w : Fin cfg1.W) :
    W4 m ρ c (Proc.devRef .tc (Pipeline.arrRef spec1 w)) = (dat1 (V3 m ρ) c).arrAt w cfg1.N :=
  exitOf_arr _ _ launch1.win.arr_inj w
theorem W5_arr (w : Fin cfg2.W) :
    W5 m ρ c (Proc.devRef .tc (Pipeline.arrRef spec2 w)) = (dat2 (V4 m ρ) c).arrAt w cfg2.N :=
  exitOf_arr _ _ launch2.win.arr_inj w
theorem W7_arr (w : Fin cfg3.W) :
    W7 m ρ c (Proc.devRef .tc (Pipeline.arrRef spec3 w)) = (dat3 (V6 m ρ) c).arrAt w cfg3.N :=
  exitOf_arr _ _ launch3.win.arr_inj w
theorem W8_arr (w : Fin cfg4.W) :
    W8 m ρ c (Proc.devRef .tc (Pipeline.arrRef spec4 w)) = (dat4 (V7 m ρ) c).arrAt w cfg4.N :=
  exitOf_arr _ _ launch4.win.arr_inj w
theorem W10_arr (w : Fin cfg5.W) :
    W10 m ρ c (Proc.devRef .tc (Pipeline.arrRef spec5 w)) = (dat5 (V9 m ρ) c).arrAt w cfg5.N :=
  exitOf_arr _ _ launch5.win.arr_inj w
theorem W16_arr (w : Fin cfg6.W) :
    W16 m ρ c (Proc.devRef .tc (Pipeline.arrRef spec6 w)) = (dat6 (V15 m ρ) c).arrAt w cfg6.N :=
  exitOf_arr _ _ launch6.win.arr_inj w
theorem W17_arr (w : Fin cfg7.W) :
    W17 m ρ c (Proc.devRef .tc (Pipeline.arrRef spec7 w)) = (dat7 (V16 m ρ) c).arrAt w cfg7.N :=
  exitOf_arr _ _ launch7.win.arr_inj w

theorem W1_keep (h : r ∉ hostOps0_W) :
    W1 m ρ c (Proc.devRef .tc r) = W0 m ρ c (Proc.devRef .tc r) :=
  StableHlo.after_of_writes_sub hostOps0 _ hostOps0_writes h
theorem W2_keep (h : r ≠ main_v21) :
    W2 m ρ c (Proc.devRef .tc r) = W1 m ρ c (Proc.devRef .tc r) :=
  exitOf_keep _ _ launch0.win.arr_inj (A_eq0 (V1 m ρ) c) (by decide) h
theorem W3_keep (h : r ∉ hostOps1_W) :
    W3 m ρ c (Proc.devRef .tc r) = W2 m ρ c (Proc.devRef .tc r) :=
  StableHlo.after_of_writes_sub hostOps1 _ hostOps1_writes h
theorem W4_keep (h : r ≠ main_v38) :
    W4 m ρ c (Proc.devRef .tc r) = W3 m ρ c (Proc.devRef .tc r) :=
  exitOf_keep _ _ launch1.win.arr_inj (A_eq1 (V3 m ρ) c) (by decide) h
theorem W5_keep (h : r ≠ main_v39) :
    W5 m ρ c (Proc.devRef .tc r) = W4 m ρ c (Proc.devRef .tc r) :=
  exitOf_keep _ _ launch2.win.arr_inj (A_eq2 (V4 m ρ) c) (by decide) h
theorem W6_keep (h : r ∉ hostOps3_W) :
    W6 m ρ c (Proc.devRef .tc r) = W5 m ρ c (Proc.devRef .tc r) :=
  StableHlo.after_of_writes_sub hostOps3 _ hostOps3_writes h
theorem W7_keep (h : r ≠ main_v56) :
    W7 m ρ c (Proc.devRef .tc r) = W6 m ρ c (Proc.devRef .tc r) :=
  exitOf_keep _ _ launch3.win.arr_inj (A_eq3 (V6 m ρ) c) (by decide) h
theorem W8_keep (h : r ≠ main_v57) :
    W8 m ρ c (Proc.devRef .tc r) = W7 m ρ c (Proc.devRef .tc r) :=
  exitOf_keep _ _ launch4.win.arr_inj (A_eq4 (V7 m ρ) c) (by decide) h
theorem W9_keep (h : r ∉ hostOps5_W) :
    W9 m ρ c (Proc.devRef .tc r) = W8 m ρ c (Proc.devRef .tc r) :=
  StableHlo.after_of_writes_sub hostOps5 _ hostOps5_writes h
theorem W10_keep (h : r ≠ main_v74) :
    W10 m ρ c (Proc.devRef .tc r) = W9 m ρ c (Proc.devRef .tc r) :=
  exitOf_keep _ _ launch5.win.arr_inj (A_eq5 (V9 m ρ) c) (by decide) h
theorem W11_keep (h : r ∉ hostOps6_W) :
    W11 m ρ c (Proc.devRef .tc r) = W10 m ρ c (Proc.devRef .tc r) :=
  StableHlo.after_of_writes_sub hostOps6 _ hostOps6_writes h
theorem W12_keep (h : r ∉ hostOps6_1_W) :
    W12 m ρ c (Proc.devRef .tc r) = W11 m ρ c (Proc.devRef .tc r) :=
  StableHlo.after_of_writes_sub hostOps6_1 _ hostOps6_1_writes h
theorem W13_keep (h : r ∉ hostOps6_2_W) :
    W13 m ρ c (Proc.devRef .tc r) = W12 m ρ c (Proc.devRef .tc r) :=
  StableHlo.after_of_writes_sub hostOps6_2 _ hostOps6_2_writes h
theorem W14_keep (h : r ∉ hostOps6_3_W) :
    W14 m ρ c (Proc.devRef .tc r) = W13 m ρ c (Proc.devRef .tc r) :=
  StableHlo.after_of_writes_sub hostOps6_3 _ hostOps6_3_writes h
theorem W15_keep (h : r ∉ hostOps6_4_W) :
    W15 m ρ c (Proc.devRef .tc r) = W14 m ρ c (Proc.devRef .tc r) :=
  StableHlo.after_of_writes_sub hostOps6_4 _ hostOps6_4_writes h
theorem W16_keep (h : r ≠ main_v78) :
    W16 m ρ c (Proc.devRef .tc r) = W15 m ρ c (Proc.devRef .tc r) :=
  exitOf_keep _ _ launch6.win.arr_inj (A_eq6 (V15 m ρ) c) (by decide) h
theorem W17_keep (h : r ≠ main_v79) :
    W17 m ρ c (Proc.devRef .tc r) = W16 m ρ c (Proc.devRef .tc r) :=
  exitOf_keep _ _ launch7.win.arr_inj (A_eq7 (V16 m ρ) c) (by decide) h

-- A reference no stretch writes and no region has as its output ends the run as launched.
theorem W17_unwritten
    (h : r ∉ hostOps0_W ∧ r ≠ main_v21 ∧ r ∉ hostOps1_W ∧ r ≠ main_v38 ∧ r ≠ main_v39 ∧ r ∉ hostOps3_W ∧ r ≠ main_v56 ∧ r ≠ main_v57 ∧ r ∉ hostOps5_W ∧ r ≠ main_v74 ∧ r ∉ hostOps6_W ∧ r ∉ hostOps6_1_W ∧ r ∉ hostOps6_2_W ∧ r ∉ hostOps6_3_W ∧ r ∉ hostOps6_4_W ∧ r ≠ main_v78 ∧ r ≠ main_v79) :
    W17 m ρ c (Proc.devRef .tc r) = W0 m ρ c (Proc.devRef .tc r) := by
  obtain ⟨h1, h2, h3, h4, h5, h6, h7, h8, h9, h10, h11, h12, h13, h14, h15, h16, h17⟩ := h
  exact (W17_keep m ρ c r h17).trans <| (W16_keep m ρ c r h16).trans <| (W15_keep m ρ c r h15).trans <| (W14_keep m ρ c r h14).trans <| (W13_keep m ρ c r h13).trans <| (W12_keep m ρ c r h12).trans <| (W11_keep m ρ c r h11).trans <| (W10_keep m ρ c r h10).trans <| (W9_keep m ρ c r h9).trans <| (W8_keep m ρ c r h8).trans <| (W7_keep m ρ c r h7).trans <| (W6_keep m ρ c r h6).trans <| (W5_keep m ρ c r h5).trans <| (W4_keep m ρ c r h4).trans <| (W3_keep m ρ c r h3).trans <| (W2_keep m ρ c r h2).trans <| W1_keep m ρ c r h1

end Cert.Kernel.Hand
end
-- ==== Proof.K.Run.lean ====
import proofs.«430582_j3058016715240_3_alg».proof.Proof.K.RunFold
import Idealize.ShloMosaic.Lib.Pipeline.RegionsLoop
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ

variable (m : (ℓ : Loc nD τ sig) → Buf (Elt F) ℓ) (ρ : Dev nD → PrngReg)

-- Each region's proof data, at its entry valuation.
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V15 m ρ) c
  | ⟨7, _⟩ => fun c => dat7 (V16 m ρ) c
abbrev 𝒱₀ : Variants := Variants.none
abbrev L : GSem nD τ sig → Finset Unit := fun _ => ∅
abbrev lv : GSem nD τ sig → Unit → ℕ := fun _ _ => 0
-- Beside the buffers every item carries the generator register at some state and dues, none.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment from the valuation Wi to exitOf of it.
def regOf (p : Fin 8) (lf : Pipeline.LaunchFacts (nD := nD) (τ := τ) cfgs p) (Wi : Dev nD → Valuation τ sig (Elt F))
    (hbody : ∀ c, BodyObligation (pdats m ρ p c) (defs₀ (F := F)) Variants.none () Set.univ)
    (hq : ∀ c w, (pdats m ρ p c).q w = fullShare := by exact fun _ _ => rfl)
    (ho : ∀ c t, (pdats m ρ p c).owed t = 0 := by exact fun _ _ => rfl)
    (hr : ∀ c t, (pdats m ρ p c).recorded t = Set.univ := by exact fun _ _ => rfl)
    (hA : ∀ c w, (pdats m ρ p c).A w = Wi c (Proc.devRef .tc (Pipeline.arrRef (cfgs p).spec w)) := by exact fun _ _ => rfl)
    (hΦ0 : ∀ c, Pipeline.ΦA (cfgs p).spec c ⊢ (pdats m ρ p c).Φ 0 := by exact fun _ => .rfl)
    (hΦN : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (exitOf (Wi c) (pdats m ρ p c)) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]; refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (fun b => exitOf (Wi c) (pdats m ρ p c) b) ((pdats m ρ p c).arrAt · (cfgs p).N)
      (fun w => (exitOf_arr (Wi c) (pdats m ρ p c) lf.win.arr_inj w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 := regOf m ρ 0 launch0 (W1 m ρ) (body_obligation0 (V1 m ρ))
def reg1 := regOf m ρ 1 launch1 (W3 m ρ) (body_obligation1 (V3 m ρ))
def reg2 := regOf m ρ 2 launch2 (W4 m ρ) (body_obligation2 (V4 m ρ))
def reg3 := regOf m ρ 3 launch3 (W6 m ρ) (body_obligation3 (V6 m ρ))
def reg4 := regOf m ρ 4 launch4 (W7 m ρ) (body_obligation4 (V7 m ρ))
def reg5 := regOf m ρ 5 launch5 (W9 m ρ) (body_obligation5 (V9 m ρ))
def reg6 := regOf m ρ 6 launch6 (W15 m ρ) (body_obligation6 (V15 m ρ)) (hΦ0 := hin6 (V15 m ρ)) (hΦN := hout6 (V15 m ρ))
def reg7 := regOf m ρ 7 launch7 (W16 m ρ) (body_obligation7 (V16 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .host (hseg hostOps6_1 hostOps6_1_sub hostOps6_1_fresh (W11 m ρ)),
    .host (hseg hostOps6_2 hostOps6_2_sub hostOps6_2_fresh (W12 m ρ)),
    .host (hseg hostOps6_3 hostOps6_3_sub hostOps6_3_fresh (W13 m ρ)),
    .host (hseg hostOps6_4 hostOps6_4_sub hostOps6_4_fresh (W14 m ρ)),
    .region (reg6 m ρ),
    .region (reg7 m ρ) ]

theorem main_run (c : Dev nD) : main (F := F) c = Pipeline.Seg.run (segs m ρ) := by
  rw [main_chain c, Pipeline.Seg.run_eq_chain]; rfl

set_option backward.isDefEq.respectTransparency.types false in
-- Every weakly fair run of @main from zero counters ends, each core's unscoped buffers at W17.
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W17 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

-- @main runs, its result ends at W17's and every argument as launched.
theorem run_value : θ_run defs (onTc (τ := τ) (main (F := F))) ⟨m, fun _ => 0, ρ⟩ (fun r => ∀ c : Dev nD,
      r.2.mem ((c.tc : Thread nD τ).loc main_v79) = W17 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have k (b : Ref sig .tc) hu hw : r.2.mem ((c.tc : Thread nD τ).loc b) = m ((c.tc : Thread nD τ).loc b) :=
      (h c _ (mem_uc b hu)).trans (W17_unwritten m ρ c b hw)
    ⟨h c _ (mem_uc main_v79 (by decide)), k _ (by decide) (by decide), k _ (by decide) (by decide), k _ (by decide) (by decide), k _ (by decide) (by decide), k _ (by decide) (by decide), k _ (by decide) (by decide), k _ (by decide) (by decide), k _ (by decide) (by decide), k _ (by decide) (by decide), k _ (by decide) (by decide), k _ (by decide) (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.Kernel.Hand
end
-- ==== Proof.KI.RegLib.lean ====
import proofs.«430582_j3058016715240_3_alg».proof.Proof.Gen.KernelIdeal.Launch
import proofs.«430582_j3058016715240_3_alg».proof.Proof.Gen.KernelIdeal.Skeleton
import proofs.«430582_j3058016715240_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal.Gen Idealize.ShloMosaic Idealize.ShloMosaic.Pipeline Idealize.SL Idealize.SL.BI Idealize.SL.BI.BIBase
open scoped Idealize.SL.BI
variable {F : FTy → Type} [FloatOps F] {Λ : Idealize.SL.Sem.Labels} {cfg : Cfg sig Λ} {c : Dev nD}

theorem Dat.before_in (dat : Dat τ (Elt F) Unit ℕ (UR sig nD τ) ℕ cfg c) (w : Fin cfg.W)
    (hX : ∀ t d, dat.fetched w t d = dat.after w t := by exact fun _ _ => rfl) (hw : (cfg.win w).isOut = false := by rfl)
    (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (t : Fin cfg.N) (d) : dat.before w t d = dat.after w t :=
  (dat.before_in_eq_fetched w hw hlive hclip (fun t => by rw [← hX t (dat.after w t)]; exact (cfg.win w).cut_fill _ _ _) t d).trans (hX t d)

local notation "𝕄" => MT nD τ sig Unit (Elt F) ℕ (UR sig nD τ) ℕ

theorem held {c : Thread nD τ} {sp sh e} {m : Memref sig c.2.kind sp sh e} {q} {f : m.view.ty.Contents (Elt F)} :
    (m.view.loc c ↦[m.view.set]{q} f : sProp 𝕄)
      ⊢ iprop(∃ g, ⌜m.view.read (Elt F) g = m.view.read (Elt F) f⌝ ∗ (m.view.loc c ↦[m.view.set]{q} g)) :=
  owns_intro c m q f

end Cert.KernelIdeal.Hand
end
-- ==== Proof.KI.Reg0.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S2000x1 := Rect.unit (s := S2000x1) ![0, 0] S2000x1.size inb_S2000x1_S2000x1_0_0
abbrev r0_3 : Rect S2000x64 := Rect.unit (s := S2000x64) ![0, 0] S2000x64.size inb_S2000x64_S2000x64_0_0

def out0_3 (x0 : Vec F S2000x128 .f32) (x1 : Vec F S128x64 .f32) (x2 : Vec F S2000x1 .f32) : Vec F S2000x64 .bf16 :=
  View.canon [⟨r0_3, k0_pay1 (View.ld x0 r0_0) (View.ld x1 r0_1) (View.ld x2 r0_2)⟩]

/-- The body leaves the inputs unchanged and stores `out0_3` of them over the whole output. -/
theorem sound_kernel0 (c : Dev nD) (E : Set ℕ) (i : grid0.Coords)
    (a0 : Memref sig .tc .vmem S2000x128 .f32) (h0 : a0.IsWhole) (a1 : Memref sig .tc .vmem S128x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc0__linear_kernel i a0 h0 a1 h1 a2 h2 a3 h3) fun _ =>
        iprop(P ∗ Q ∗ owns c a0 fullShare x0 ∗ owns c a1 fullShare x1 ∗ owns c a2 fullShare x2 ∗ owns c a3 fullShare (out0_3 x0 x1 x2)) := by
  simp only [cc0__linear_kernel_eq_skeleton]; unfold cc0__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- The body's triple at the inputs' blocks; the rest is framed. -/
theorem body_obligation0 (c : Dev nD) : BodyObligation (dat0 (F := F) V c) (defs₀ (F := F)) Variants.none () Set.univ := fun t => by
  rw [bigSep_W0, bigSep_W0]
  simp only [Dat.before_in (dat0 V c) 0, Dat.before_in (dat0 V c) 1, Dat.before_in (dat0 V c) 2]
  dsimp only [dat0]
  change _ ⊢ wp _ _ _ (bodyAt0 t) _
  iintro ⟨HP, HQ, ⟨%_, H0⟩, ⟨%_, H1⟩, ⟨%_, H2⟩, ⟨%_, H3⟩⟩
  iapply sound_kernel0
  iframe
  iexact HQ

end Cert.KernelIdeal.Hand
end
-- ==== Proof.KI.Reg1.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0
abbrev r1_1 : Rect S2000x1 := Rect.unit (s := S2000x1) ![0, 0] S2000x1.size inb_S2000x1_S2000x1_0_0
abbrev r1_2 : Rect S1x64 := Rect.unit (s := S1x64) ![0, 0] S1x64.size inb_S1x64_S1x64_0_0

def out1_4 (x0 : Vec F S2000x64 .f32) (x1 : Vec F S2000x64 .bf16) (x2 : Vec F S2000x1 .f32) (x3 : Vec F S1x64 .f32) : Vec F S2000x64 .bf16 :=
  View.canon [⟨r1_0, k1_pay1 (View.ld x1 r1_0) (View.ld x0 r1_0) (View.ld x2 r1_1) (View.ld x3 r1_2)⟩]

/-- The body leaves the inputs unchanged and stores `out1_4` of them over the whole output. -/
theorem sound_kernel1 (c : Dev nD) (E : Set ℕ) (i : grid1.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc1__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out1_4 x0 x1 x2 x3)) := by
  simp only [cc1__combine_kernel_eq_skeleton]; unfold cc1__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

/-- The body's triple at the inputs' blocks; the rest is framed. -/
theorem body_obligation1 (c : Dev nD) : BodyObligation (dat1 (F := F) V c) (defs₀ (F := F)) Variants.none () Set.univ := fun t => by
  rw [bigSep_W1, bigSep_W1]
  simp only [Dat.before_in (dat1 V c) 0, Dat.before_in (dat1 V c) 1, Dat.before_in (dat1 V c) 2, Dat.before_in (dat1 V c) 3]
  dsimp only [dat1]
  change _ ⊢ wp _ _ _ (bodyAt1 t) _
  iintro ⟨HP, HQ, ⟨%_, H0⟩, ⟨%_, H1⟩, ⟨%_, H2⟩, ⟨%_, H3⟩, ⟨%_, H4⟩⟩
  iapply sound_kernel1
  iframe
  iexact HQ

end Cert.KernelIdeal.Hand
end
-- ==== Proof.KI.Reg2.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit (s := S2000x64) ![0, 0] S2000x64.size inb_S2000x64_S2000x64_0_0
abbrev r2_1 : Rect S64x64 := Rect.unit (s := S64x64) ![0, 0] S64x64.size inb_S64x64_S64x64_0_0
abbrev r2_2 : Rect S2000x1 := Rect.unit (s := S2000x1) ![0, 0] S2000x1.size inb_S2000x1_S2000x1_0_0

def out2_3 (x0 : Vec F S2000x64 .bf16) (x1 : Vec F S64x64 .f32) (x2 : Vec F S2000x1 .f32) : Vec F S2000x64 .bf16 :=
  View.canon [⟨r2_0, k2_pay1 (View.ld x0 r2_0) (View.ld x1 r2_1) (View.ld x2 r2_2)⟩]

/-- The body leaves the inputs unchanged and stores `out2_3` of them over the whole output. -/
theorem sound_kernel2 (c : Dev nD) (E : Set ℕ) (i : grid2.Coords)
    (a0 : Memref sig .tc .vmem S2000x64 .bf16) (h0 : a0.IsWhole) (a1 : Memref sig .tc .vmem S64x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc2__linear_kernel i a0 h0 a1 h1 a2 h2 a3 h3) fun _ =>
        iprop(P ∗ Q ∗ owns c a0 fullShare x0 ∗ owns c a1 fullShare x1 ∗ owns c a2 fullShare x2 ∗ owns c a3 fullShare (out2_3 x0 x1 x2)) := by
  simp only [cc2__linear_kernel_eq_skeleton]; unfold cc2__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2_3 (iblk2 V c 0 t) (iblk2 V c 1 t) (iblk2 V c 2 t) := by dsimp only [dat2]

/-- The body's triple at the inputs' blocks; the rest is framed. -/
theorem body_obligation2 (c : Dev nD) : BodyObligation (dat2 (F := F) V c) (defs₀ (F := F)) Variants.none () Set.univ := fun t => by
  rw [bigSep_W2, bigSep_W2]
  simp only [Dat.before_in (dat2 V c) 0, Dat.before_in (dat2 V c) 1, Dat.before_in (dat2 V c) 2]
  dsimp only [dat2]
  change _ ⊢ wp _ _ _ (bodyAt2 t) _
  iintro ⟨HP, HQ, ⟨%_, H0⟩, ⟨%_, H1⟩, ⟨%_, H2⟩, ⟨%_, H3⟩⟩
  iapply sound_kernel2
  iframe
  iexact HQ

end Cert.KernelIdeal.Hand
end
-- ==== Proof.KI.Reg3.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_4 (x0 : Vec F S2000x64 .f32) (x1 : Vec F S2000x64 .bf16) (x2 : Vec F S2000x1 .f32) (x3 : Vec F S1x64 .f32) : Vec F S2000x64 .bf16 :=
  View.canon [⟨r3_0, k3_pay1 (View.ld x1 r3_0) (View.ld x0 r3_0) (View.ld x2 r3_1) (View.ld x3 r3_2)⟩]

/-- The body leaves the inputs unchanged and stores `out3_4` of them over the whole output. -/
theorem sound_kernel3 (c : Dev nD) (E : Set ℕ) (i : grid3.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc3__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out3_4 x0 x1 x2 x3)) := by
  simp only [cc3__combine_kernel_eq_skeleton]; unfold cc3__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = out3_4 (iblk3 V c 0 t) (iblk3 V c 1 t) (iblk3 V c 2 t) (iblk3 V c 3 t) := by dsimp only [dat3]

/-- The body's triple at the inputs' blocks; the rest is framed. -/
theorem body_obligation3 (c : Dev nD) : BodyObligation (dat3 (F := F) V c) (defs₀ (F := F)) Variants.none () Set.univ := fun t => by
  rw [bigSep_W3, bigSep_W3]
  simp only [Dat.before_in (dat3 V c) 0, Dat.before_in (dat3 V c) 1, Dat.before_in (dat3 V c) 2, Dat.before_in (dat3 V c) 3]
  dsimp only [dat3]
  change _ ⊢ wp _ _ _ (bodyAt3 t) _
  iintro ⟨HP, HQ, ⟨%_, H0⟩, ⟨%_, H1⟩, ⟨%_, H2⟩, ⟨%_, H3⟩, ⟨%_, H4⟩⟩
  iapply sound_kernel3
  iframe
  iexact HQ

end Cert.KernelIdeal.Hand
end
-- ==== Proof.KI.Reg4.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x64 := Rect.unit (s := S2000x64) ![0, 0] S2000x64.size inb_S2000x64_S2000x64_0_0
abbrev r4_1 : Rect S64x64 := Rect.unit (s := S64x64) ![0, 0] S64x64.size inb_S64x64_S64x64_0_0
abbrev r4_2 : Rect S2000x1 := Rect.unit (s := S2000x1) ![0, 0] S2000x1.size inb_S2000x1_S2000x1_0_0

def out4_3 (x0 : Vec F S2000x64 .bf16) (x1 : Vec F S64x64 .f32) (x2 : Vec F S2000x1 .f32) : Vec F S2000x64 .bf16 :=
  View.canon [⟨r4_0, k4_pay1 (View.ld x0 r4_0) (View.ld x1 r4_1) (View.ld x2 r4_2)⟩]

/-- The body leaves the inputs unchanged and stores `out4_3` of them over the whole output. -/
theorem sound_kernel4 (c : Dev nD) (E : Set ℕ) (i : grid4.Coords)
    (a0 : Memref sig .tc .vmem S2000x64 .bf16) (h0 : a0.IsWhole) (a1 : Memref sig .tc .vmem S64x64 .f32) (h1 : a1.IsWhole)
    (a2 : Memref sig .tc .vmem S2000x1 .f32) (h2 : a2.IsWhole) (a3 : Memref sig .tc .vmem S2000x64 .bf16) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc4__linear_kernel i a0 h0 a1 h1 a2 h2 a3 h3) fun _ =>
        iprop(P ∗ Q ∗ owns c a0 fullShare x0 ∗ owns c a1 fullShare x1 ∗ owns c a2 fullShare x2 ∗ owns c a3 fullShare (out4_3 x0 x1 x2)) := by
  simp only [cc4__linear_kernel_eq_skeleton]; unfold cc4__linear_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S2000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

/-- The body's triple at the inputs' blocks; the rest is framed. -/
theorem body_obligation4 (c : Dev nD) : BodyObligation (dat4 (F := F) V c) (defs₀ (F := F)) Variants.none () Set.univ := fun t => by
  rw [bigSep_W4, bigSep_W4]
  simp only [Dat.before_in (dat4 V c) 0, Dat.before_in (dat4 V c) 1, Dat.before_in (dat4 V c) 2]
  dsimp only [dat4]
  change _ ⊢ wp _ _ _ (bodyAt4 t) _
  iintro ⟨HP, HQ, ⟨%_, H0⟩, ⟨%_, H1⟩, ⟨%_, H2⟩, ⟨%_, H3⟩⟩
  iapply sound_kernel4
  iframe
  iexact HQ

end Cert.KernelIdeal.Hand
end
-- ==== Proof.KI.Reg5.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x64 := Rect.unit (s := S2000x64) ![0, 0] S2000x64.size inb_S2000x64_S2000x64_0_0
abbrev r5_1 : Rect S2000x1 := Rect.unit (s := S2000x1) ![0, 0] S2000x1.size inb_S2000x1_S2000x1_0_0
abbrev r5_2 : Rect S1x64 := Rect.unit (s := S1x64) ![0, 0] S1x64.size inb_S1x64_S1x64_0_0

def out5_4 (x0 : Vec F S2000x64 .f32) (x1 : Vec F S2000x64 .bf16) (x2 : Vec F S2000x1 .f32) (x3 : Vec F S1x64 .f32) : Vec F S2000x64 .bf16 :=
  View.canon [⟨r5_0, k5_pay1 (View.ld x1 r5_0) (View.ld x0 r5_0) (View.ld x2 r5_1) (View.ld x3 r5_2)⟩]

/-- The body leaves the inputs unchanged and stores `out5_4` of them over the whole output. -/
theorem sound_kernel5 (c : Dev nD) (E : Set ℕ) (i : grid5.Coords)
    (a0 : Memref sig .tc .vmem S2000x64 .f32) (h0 : a0.IsWhole) (a1 : Memref sig .tc .vmem S2000x64 .bf16) (h1 : a1.IsWhole)
    (a2 : Memref sig .tc .vmem S2000x1 .f32) (h2 : a2.IsWhole) (a3 : Memref sig .tc .vmem S1x64 .f32) (h3 : a3.IsWhole)
    (a4 : Memref sig .tc .vmem S2000x64 .bf16) (h4 : a4.IsWhole) (x0 x1 x2 x3 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare x3 ∗ owns c a4 fullShare d)
      ⊢ wp frame (wpE (defs₀ (F := F)) Variants.none c none) E (cc5__combine_kernel i a0 h0 a1 h1 a2 h2 a3 h3 a4 h4) fun _ =>
        iprop(P ∗ Q ∗ owns c a0 fullShare x0 ∗ owns c a1 fullShare x1 ∗ owns c a2 fullShare x2 ∗ owns c a3 fullShare x3
          ∗ owns c a4 fullShare (out5_4 x0 x1 x2 x3)) := by
  simp only [cc5__combine_kernel_eq_skeleton]; unfold cc5__combine_kernel_skel owns
  iintro ⟨HP, HQ, ⟨%f0, %e0, H0⟩, ⟨%f1, %e1, H1⟩, ⟨%f2, %e2, H2⟩, ⟨%f3, %e3, H3⟩, %f4, -, H4⟩
  subst e0 e1 e2 e3
  sl_exec
  sl_step
  iframe HP HQ
  isplitl [H0]; · iapply held; iexact H0
  isplitl [H1]; · iapply held; iexact H1
  isplitl [H2]; · iapply held; iexact H2
  isplitl [H3]; · iapply held; iexact H3
  iexists _; isplitr; swap; · iexact H4
  ipureintro
  exact View.read_writes_eq_canon _ _ _ (View.cover_of_tiled _ S2000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

/-- The body's triple at the inputs' blocks; the rest is framed. -/
theorem body_obligation5 (c : Dev nD) : BodyObligation (dat5 (F := F) V c) (defs₀ (F := F)) Variants.none () Set.univ := fun t => by
  rw [bigSep_W5, bigSep_W5]
  simp only [Dat.before_in (dat5 V c) 0, Dat.before_in (dat5 V c) 1, Dat.before_in (dat5 V c) 2, Dat.before_in (dat5 V c) 3]
  dsimp only [dat5]
  change _ ⊢ wp _ _ _ (bodyAt5 t) _
  iintro ⟨HP, HQ, ⟨%_, H0⟩, ⟨%_, H1⟩, ⟨%_, H2⟩, ⟨%_, H3⟩, ⟨%_, H4⟩⟩
  iapply sound_kernel5
  iframe
  iexact HQ

end Cert.KernelIdeal.Hand
end
-- ==== Proof.KI.Reg6Runs.lean ====
import proofs.«430582_j3058016715240_3_alg».proof.Proof.Gen.KernelIdeal.Launch
import proofs.«430582_j3058016715240_3_alg».proof.Proof.Gen.KernelIdeal.Skeleton
import proofs.«430582_j3058016715240_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 7 = 0 :=
  (by decide +kernel : ∀ t : Fin grid6.N, cond6_0 (grid6.coords t) ↔ t.val % 7 = 0)

abbrev cond6_1 (i : grid6.Coords) : Prop := k6_cond2 i = 1#1
theorem hcond6_1 : ∀ t : Fin cfg6.N, cond6_1 (grid6.coords t) ↔ t.val % 7 = 6 :=
  (by decide +kernel : ∀ t : Fin grid6.N, cond6_1 (grid6.coords t) ↔ t.val % 7 = 6)

theorem hz6 : (![0, 0] : Fin 2 → Nat) = fun _ => 0 := funext fun a => by revert a; decide

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev scM6_0 : Memref sig .tc .vmem S64x64 .f32 := Memref.whole cc6_scratch0
abbrev scM6_1 : Memref sig .tc .vmem S64x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

-- A store through the whole buffer, made last, leaves its payload whatever the buffer held.
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons.mpr (.inl rfl), by show y ∈ (Rect.whole S).set; rw [Rect.set_whole]; exact Finset.mem_univ y⟩),
    View.canon_cons_unit_zero rfl]

end Cert.KernelIdeal.Hand
end
-- ==== Proof.KI.Reg6RunA.lean ====
import proofs.«430582_j3058016715240_3_alg».proof.Proof.KI.Reg6Runs
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
-- Every store fills its whole buffer, so each buffer ends at the payload of its last store, read off the entry contents.
theorem kernelRun6 (c : Dev nD) (i : grid6.Coords) (hx : cond6_0 i → ¬cond6_1 i) (arg1 : Memref sig .tc .vmem S1x7168 .i32) (harg1 : arg1.IsWhole) (arg2 : Memref sig .tc .vmem S7168x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole)
    (x0 : Vec F S1x7168 .i32) (x1 : Vec F S7168x64 .bf16) (x2 : Vec F S64x64 .f32) (xs0 : Vec F S64x64 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (if cond6_1 i then k6_pay6 (k6_pay4 x0 x1 (if cond6_0 i then k6_pay1 else xs0)) (k6_pay5 x0 (if cond6_0 i then k6_pay2 else xs1)) else x2)
            ∗ owns (c : Thread nD τ) arg4 fullShare (k6_pay4 x0 x1 (if cond6_0 i then k6_pay1 else xs0))
            ∗ owns (c : Thread nD τ) arg5 fullShare (k6_pay5 x0 (if cond6_0 i then k6_pay2 else xs1))) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  by_cases hc0 : cond6_0 i <;> [simp only [if_pos hc0]; simp only [if_neg hc0]] <;> (by_cases hc1 : cond6_1 i <;> [simp only [if_pos hc1]; simp only [if_neg hc1]]) <;> try exact absurd hc1 (hx hc0)
  all_goals
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]; (iexists _; isplitr; swap; iexact H0); rotate_left
    isplitl [H1]; (iexists _; isplitr; swap; iexact H1); rotate_left
    isplitl [H2]; (iexists _; isplitr; swap; iexact H2); rotate_left
    isplitl [HS0]; (iexists _; isplitr; swap; iexact HS0); rotate_left
    iexists _; isplitr; swap; iexact HS1
    all_goals
      ipureintro; try sl_unfold_words
      simp only [read_writes_whole (S := S64x64) _ _ hz6, read_writes_whole (S := S64x1) _ _ hz6, View.readCov_unit_zero (S := S64x64) _ hz6, View.readCov_unit_zero (S := S64x1) _ hz6, View.readAt_eq_ld, harg1.read_unread, harg2.read_unread, harg3.read_unread, harg4.read_unread, harg5.read_unread, View.ld_unit_zero (S := S1x7168) hz6, View.ld_unit_zero (S := S7168x64) hz6, View.ld_unit_zero (S := S64x64) hz6, View.ld_unit_zero (S := S64x1) hz6]

end Cert.KernelIdeal.Hand
end
-- ==== Proof.KI.Reg6.lean ====
import proofs.«430582_j3058016715240_3_alg».proof.Proof.KI.Reg6RunA
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The accumulator and the count after point n: reset at the first point, then one block's share added per point.
def acc6 (c : Dev nD) : (n : ℕ) → n < cfg6.N → Vec F S64x64 .f32 × Vec F S64x1 .f32
  | 0, h => (k6_pay4 (iblk6 V c 0 ⟨0, h⟩) (iblk6 V c 1 ⟨0, h⟩) k6_pay1, k6_pay5 (iblk6 V c 0 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 0 ⟨n + 1, h⟩) (acc6 c n (Nat.lt_of_succ_lt h)).2)

def prev6 (c : Dev nD) (n : ℕ) (p : Vec F S64x64 .f32 × Vec F S64x1 .f32) : Prop :=
  ∀ m (hm : m < cfg6.N), n = m + 1 → p = acc6 V c m hm

theorem acc6_eq (c : Dev nD) (t : Fin cfg6.N) (p : Vec F S64x64 .f32 × Vec F S64x1 .f32) (hp : prev6 V c t.val p) :
    acc6 V c t.val t.isLt = (k6_pay4 (iblk6 V c 0 t) (iblk6 V c 1 t) (if cond6_0 (grid6.coords t) then k6_pay1 else p.1),
      k6_pay5 (iblk6 V c 0 t) (if cond6_0 (grid6.coords t) then k6_pay2 else p.2)) := by
  obtain ⟨n, hn⟩ := t
  cases n with
  | zero => rw [if_pos ((hcond6_0 _).mpr rfl), if_pos ((hcond6_0 _).mpr rfl)]; rfl
  | succ n =>
    have hN : n + 1 < 7 := lt_of_lt_of_eq hn N_6
    have h0 : ¬cond6_0 (grid6.coords ⟨n + 1, hn⟩) := fun h => by have := (hcond6_0 _).mp h; dsimp only at this; omega
    rw [if_neg h0, if_neg h0, hp n (Nat.lt_of_succ_lt hn) rfl]; rfl

-- The invariant before point n: the accumulator and the count at what point n - 1 left (at anything when n = 0).
def PhiS6 (c : Dev nD) (n : ℕ) : sProp 𝕄 :=
  iprop(iprop(iprop(∃ p, ⌜prev6 V c n p⌝ ∗ owns (c : Thread nD τ) scM6_0 fullShare p.1 ∗ owns (c : Thread nD τ) scM6_1 fullShare p.2)
      ∗ Pipeline.scopedRestBut (Ix := Unit) (Name := ℕ) (U := UR sig nD τ) (Lvl := ℕ) (Val := Elt F) spec6 c [cc6_scratch0, cc6_scratch1]) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay6 (acc6 V c t.val t.isLt).1 (acc6 V c t.val t.isLt).2
  Φ t := PhiS6 V c t.val
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) : (dat6 V c).after 2 t = k6_pay6 (acc6 V c t.val t.isLt).1 (acc6 V c t.val t.isLt).2 := by dsimp only [dat6]

theorem before6_0 (c : Dev nD) (t : Fin cfg6.N) (d) : (dat6 V c).before 0 t d = iblk6 V c 0 t :=
  ((dat6 V c).before_fetched 0 t (fetch6_0 t) d).trans rfl
theorem before6_1 (c : Dev nD) (t : Fin cfg6.N) (d) : (dat6 V c).before 1 t d = iblk6 V c 1 t :=
  ((dat6 V c).before_fetched 1 t (fetch6_1 t) d).trans rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) (fun _ =>
      iprop((dat6 V c).Φ t.succ ∗ (dat6 V c).owesAt () t.succ ∗ (dat6 V c).leavesExact 0 t ∗ (dat6 V c).leavesExact 1 t ∗ (dat6 V c).leavesExact 2 t)) := by
  unfold bodyAt6
  simp only [before6_0, before6_1]
  rw [show (dat6 V c).owesAt () t.succ = (dat6 V c).owesAt () t.castSucc from rfl]
  rw [show (dat6 V c).Φ t.succ = PhiS6 V c (t.val + 1) from rfl, show (dat6 V c).Φ t.castSucc = PhiS6 V c t.val from rfl]
  rw [show (dat6 V c).leavesExact 0 t = owns (c : Thread nD τ) (st6_0 t) fullShare (iblk6 V c 0 t) from by
      unfold Dat.leavesExact; rw [liveAt6_0 t]; rfl]
  rw [show (dat6 V c).leavesExact 1 t = owns (c : Thread nD τ) (st6_1 t) fullShare (iblk6 V c 1 t) from by
      unfold Dat.leavesExact; rw [liveAt6_1 t]; rfl]
  have hx : cond6_0 (grid6.coords t) → ¬cond6_1 (grid6.coords t) := fun h0 h1 => by
    have := (hcond6_0 t).mp h0; have := (hcond6_1 t).mp h1; omega
  unfold PhiS6
  iintro ⟨⟨⟨⟨%p, %hp, HS0, HS1⟩, HR⟩, Hg⟩, Ho, ⟨%d0, H0⟩, ⟨%d1, H1⟩, ⟨%d2, H2⟩⟩
  have e := acc6_eq V c t p hp
  iapply (kernelRun6 c (grid6.coords t) hx _ _ _ _ _ _ _ _ _ _ (iblk6 V c 0 t) (iblk6 V c 1 t) ((dat6 V c).before 2 t d2) p.1 p.2 Set.univ _)
  iframe H0 H1 H2 HS0 HS1
  iintro ⟨H0, H1, H2, HS0, HS1⟩
  iframe HR Hg Ho H0 H1
  isplitl [HS0 HS1]
  · iexists (_, _); isplitr
    · ipureintro; intro m hm h; cases h; exact e.symm
    iframe
  by_cases h1 : cond6_1 (grid6.coords t)
  · rw [show (dat6 V c).leavesExact 2 t = owns (c : Thread nD τ) (st6_2 t) fullShare ((dat6 V c).after 2 t) from by
      unfold Dat.leavesExact; rw [liveAt6_2 t h1], after6_2, e, if_pos h1]
    iexact H2
  · rw [Dat.leavesExact_idle (dat6 V c) 2 t (idleAt6_2 t h1) (noFlush6_2 t h1), if_neg h1]
    iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 from rfl, PhiA6_eq]; unfold PhiS6
  iintro ⟨⟨⟨⟨%a, Ha⟩, ⟨%s, Hs⟩⟩, HR⟩, Hg⟩
  iframe HR Hg
  iexists (a, s); isplitr
  · ipureintro; intro m hm h; cases h
  iframe

theorem hout6 (c : Dev nD) : (dat6 V c).Φ (Fin.last cfg6.N) ⊢ Pipeline.ΦA spec6 c := by
  rw [show (dat6 V c).Φ (Fin.last cfg6.N) = PhiS6 V c (Fin.last cfg6.N).val from rfl, PhiA6_eq]; unfold PhiS6
  iintro ⟨⟨⟨%p, -, Ha, Hs⟩, HR⟩, Hg⟩
  iframe HR Hg
  isplitl [Ha]
  · iexists _; iexact Ha
  · iexists _; iexact Hs

end Cert.KernelIdeal.Hand
end
-- ==== Proof.KI.Reg7.lean ====
import proofs.«430582_j3058016715240_3_alg».proof.Proof.KI.RegLib
noncomputable section
namespace Cert.KernelIdeal.Hand
open Cert.KernelIdeal.Gen Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem
open scoped Idealize.SL.BI
variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S64x16 := Rect.unit (s := S64x16) ![0, 0] S64x16.size inb_S64x16_S64x16_0_0
abbrev r7_1 : Rect S64x64 := Rect.unit (s := S64x64) ![0, 0] S64x64.size inb_S64x64_S64x64_0_0
abbrev r7_2 : Rect S1x16 := Rect.unit (s := S1x16) ![0, 0] S1x16.size inb_S1x16_S1x16_0_0

def out7_3 (x0 : Vec F S64x64 .f32) (x1 : Vec F S64x16 .f32) (x2 : Vec F S1x16 .f32) : Vec F S64x16 .f32 :=
  View.canon [⟨r7_0, k7_pay1 (View.ld x0 r7_1) (View.ld x1 r7_0) (View.ld x2 r7_2)⟩]

/-- The body leaves the inputs unchanged and stores `out7_3` of them over the whole output. -/
theorem sound_kernel7 (c : Dev nD) (E : Set ℕ) (i : grid7.Coords)
    (a0 : Memref sig .tc .vmem S64x64 .f32) (h0 : a0.IsWhole) (a1 : Memref sig .tc .vmem S64x16 .f32) (h1 : a1.IsWhole)
    (a2 : Memref sig .tc .vmem S1x16 .f32) (h2 : a2.IsWhole) (a3 : Memref sig .tc .vmem S64x16 .f32) (h3 : a3.IsWhole) (x0 x1 x2 d)
    (P Q : sProp (MT nD τ sig Unit (Elt F) ℕ (UR sig nD τ) ℕ)) :
    iprop(P ∗ Q ∗ owns c a0 fullShare x0 ∗ owns c a1 fullShare x1 ∗ owns c a2 fullShare x2 ∗ owns c a3 fullShare d)
      ⊢ wp frame (wpE (defs₀ (F := F)) Variants.none c none) E (cc7__classifier_kernel i a0 h0 a1 h1 a2 h2 a3 h3) fun _ =>
        iprop(P ∗ Q ∗ owns c a0 fullShare x0 ∗ owns c a1 fullShare x1 ∗ owns c a2 fullShare x2 ∗ owns c a3 fullShare (out7_3 x0 x1 x2)) := by
  simp only [cc7__classifier_kernel_eq_skeleton]; unfold cc7__classifier_kernel_skel owns
  iintro ⟨HP, HQ, ⟨%f0, %e0, H0⟩, ⟨%f1, %e1, H1⟩, ⟨%f2, %e2, H2⟩, %f3, -, H3⟩
  subst e0 e1 e2
  sl_exec
  sl_step
  iframe HP HQ
  isplitl [H0]; · iapply held; iexact H0
  isplitl [H1]; · iapply held; iexact H1
  isplitl [H2]; · iapply held; iexact H2
  iexists _; isplitr; swap; · iexact H3
  ipureintro
  exact View.read_writes_eq_canon _ _ _ (View.cover_of_tiled _ S64x16.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7_3 (iblk7 V c 0 t) (iblk7 V c 1 t) (iblk7 V c 2 t) := by dsimp only [dat7]

/-- The body's triple at the inputs' blocks; the rest is framed. -/
theorem body_obligation7 (c : Dev nD) : BodyObligation (dat7 (F := F) V c) (defs₀ (F := F)) Variants.none () Set.univ := fun t => by
  rw [bigSep_W7, bigSep_W7]
  simp only [Dat.before_in (dat7 V c) 0, Dat.before_in (dat7 V c) 1, Dat.before_in (dat7 V c) 2]
  dsimp only [dat7]
  change _ ⊢ wp _ _ _ (bodyAt7 t) _
  iintro ⟨HP, HQ, ⟨%_, H0⟩, ⟨%_, H1⟩, ⟨%_, H2⟩, ⟨%_, H3⟩⟩
  iapply sound_kernel7
  iframe
  iexact HQ

end Cert.KernelIdeal.Hand
end
-- ==== Proof.KI.RunFold.lean ====
import proofs.«430582_j3058016715240_3_alg».proof.Proof.Gen.KernelIdeal.Regions
import proofs.«430582_j3058016715240_3_alg».proof.Proof.KI.Reg0
import proofs.«430582_j3058016715240_3_alg».proof.Proof.KI.Reg1
import proofs.«430582_j3058016715240_3_alg».proof.Proof.KI.Reg2
import proofs.«430582_j3058016715240_3_alg».proof.Proof.KI.Reg3
import proofs.«430582_j3058016715240_3_alg».proof.Proof.KI.Reg4
import proofs.«430582_j3058016715240_3_alg».proof.Proof.KI.Reg5
import proofs.«430582_j3058016715240_3_alg».proof.Proof.KI.Reg6
import proofs.«430582_j3058016715240_3_alg».proof.Proof.KI.Reg7
import Idealize.ShloMosaic.Lib.Pipeline.FrameSuffix
noncomputable section
namespace Cert.KernelIdeal.Hand
open Cert.KernelIdeal Cert.KernelIdeal.Gen
open Idealize.ShloMosaic Idealize.ShloMosaic.TcCoe
open Idealize.ShloMosaic.Pipeline (Dat)
variable {F : FTy → Type} [FloatOps F]

section
variable {cfg : Pipeline.Cfg sig Λ₀} {c : Dev nD} (Wi : Valuation τ sig (Elt F)) (dat : Dat τ (Elt F) Unit ℕ (UR sig nD τ) ℕ cfg c)

-- The valuation after a region: its arrays at their last contents, every other reference unchanged.
abbrev exitOf : Valuation τ sig (Elt F) := Pipeline.withArrays cfg.spec c Wi fun w => dat.arrAt w cfg.N

theorem exitOf_arr (hinj : Function.Injective (Pipeline.arrRef cfg.spec)) (w : Fin cfg.W) :
    exitOf Wi dat (Proc.devRef .tc (Pipeline.arrRef cfg.spec w)) = dat.arrAt w cfg.N :=
  Pipeline.withArrays_arr _ hinj c _ _ w

-- An input's array stays at its entry contents, so only the output's array changes.
theorem exitOf_keep (hinj : Function.Injective (Pipeline.arrRef cfg.spec))
    (hA : ∀ w, dat.A w = Wi (Proc.devRef .tc (Pipeline.arrRef cfg.spec w))) {o r : Ref sig .tc}
    (ho : ∀ w, Pipeline.arrRef cfg.spec w ≠ o → (cfg.win w).isOut = false) (h : r ≠ o) :
    exitOf Wi dat (Proc.devRef .tc r) = Wi (Proc.devRef .tc r) := by
  by_cases hr : ∃ w, Pipeline.arrRef cfg.spec w = r
  · obtain ⟨w, rfl⟩ := hr
    exact (exitOf_arr Wi dat hinj w).trans ((dat.arrAt_in w (ho w h) _).trans (hA w))
  · exact Pipeline.withArrays_of_ne _ c _ _ r fun w e => hr ⟨w, e⟩
end

-- A valuation as a function of references.
abbrev tcOf (W : Dev nD → Valuation τ sig (Elt F)) (c : Dev nD) (b : Ref sig .tc) :
    Buf (Elt F) ((c : Thread nD τ).loc b) := W c b

variable (m : (ℓ : Loc nD τ sig) → Buf (Elt F) ℓ) (ρ : Dev nD → PrngReg)

-- W0 is the launch's memory; each later WJ is what the J-th item of @main leaves from W(J-1).
abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcOf (W1 m ρ)
def W2 (c : Dev nD) : Valuation τ sig (Elt F) := exitOf (W1 m ρ c) (dat0 (V1 m ρ) c)
abbrev W3 : Dev nD → Valuation τ sig (Elt F) := fun c => StableHlo.after hostOps1 (W2 m ρ c)
abbrev V3 := tcOf (W3 m ρ)
def W4 (c : Dev nD) : Valuation τ sig (Elt F) := exitOf (W3 m ρ c) (dat1 (V3 m ρ) c)
abbrev V4 := tcOf (W4 m ρ)
def W5 (c : Dev nD) : Valuation τ sig (Elt F) := exitOf (W4 m ρ c) (dat2 (V4 m ρ) c)
abbrev W6 : Dev nD → Valuation τ sig (Elt F) := fun c => StableHlo.after hostOps3 (W5 m ρ c)
abbrev V6 := tcOf (W6 m ρ)
def W7 (c : Dev nD) : Valuation τ sig (Elt F) := exitOf (W6 m ρ c) (dat3 (V6 m ρ) c)
abbrev V7 := tcOf (W7 m ρ)
def W8 (c : Dev nD) : Valuation τ sig (Elt F) := exitOf (W7 m ρ c) (dat4 (V7 m ρ) c)
abbrev W9 : Dev nD → Valuation τ sig (Elt F) := fun c => StableHlo.after hostOps5 (W8 m ρ c)
abbrev V9 := tcOf (W9 m ρ)
def W10 (c : Dev nD) : Valuation τ sig (Elt F) := exitOf (W9 m ρ c) (dat5 (V9 m ρ) c)
abbrev W11 : Dev nD → Valuation τ sig (Elt F) := fun c => StableHlo.after hostOps6 (W10 m ρ c)
abbrev W12 : Dev nD → Valuation τ sig (Elt F) := fun c => StableHlo.after hostOps6_1 (W11 m ρ c)
abbrev W13 : Dev nD → Valuation τ sig (Elt F) := fun c => StableHlo.after hostOps6_2 (W12 m ρ c)
abbrev W14 : Dev nD → Valuation τ sig (Elt F) := fun c => StableHlo.after hostOps6_3 (W13 m ρ c)
abbrev W15 : Dev nD → Valuation τ sig (Elt F) := fun c => StableHlo.after hostOps6_4 (W14 m ρ c)
abbrev V15 := tcOf (W15 m ρ)
def W16 (c : Dev nD) : Valuation τ sig (Elt F) := exitOf (W15 m ρ c) (dat6 (V15 m ρ) c)
abbrev V16 := tcOf (W16 m ρ)
def W17 (c : Dev nD) : Valuation τ sig (Elt F) := exitOf (W16 m ρ c) (dat7 (V16 m ρ) c)

variable (c : Dev nD) (r : Ref sig .tc)

theorem W2_arr (w : Fin cfg0.W) :
    W2 m ρ c (Proc.devRef .tc (Pipeline.arrRef spec0 w)) = (dat0 (V1 m ρ) c).arrAt w cfg0.N :=
  exitOf_arr _ _ launch0.win.arr_inj w
theorem W4_arr (w : Fin cfg1.W) :
    W4 m ρ c (Proc.devRef .tc (Pipeline.arrRef spec1 w)) = (dat1 (V3 m ρ) c).arrAt w cfg1.N :=
  exitOf_arr _ _ launch1.win.arr_inj w
theorem W5_arr (w : Fin cfg2.W) :
    W5 m ρ c (Proc.devRef .tc (Pipeline.arrRef spec2 w)) = (dat2 (V4 m ρ) c).arrAt w cfg2.N :=
  exitOf_arr _ _ launch2.win.arr_inj w
theorem W7_arr (w : Fin cfg3.W) :
    W7 m ρ c (Proc.devRef .tc (Pipeline.arrRef spec3 w)) = (dat3 (V6 m ρ) c).arrAt w cfg3.N :=
  exitOf_arr _ _ launch3.win.arr_inj w
theorem W8_arr (w : Fin cfg4.W) :
    W8 m ρ c (Proc.devRef .tc (Pipeline.arrRef spec4 w)) = (dat4 (V7 m ρ) c).arrAt w cfg4.N :=
  exitOf_arr _ _ launch4.win.arr_inj w
theorem W10_arr (w : Fin cfg5.W) :
    W10 m ρ c (Proc.devRef .tc (Pipeline.arrRef spec5 w)) = (dat5 (V9 m ρ) c).arrAt w cfg5.N :=
  exitOf_arr _ _ launch5.win.arr_inj w
theorem W16_arr (w : Fin cfg6.W) :
    W16 m ρ c (Proc.devRef .tc (Pipeline.arrRef spec6 w)) = (dat6 (V15 m ρ) c).arrAt w cfg6.N :=
  exitOf_arr _ _ launch6.win.arr_inj w
theorem W17_arr (w : Fin cfg7.W) :
    W17 m ρ c (Proc.devRef .tc (Pipeline.arrRef spec7 w)) = (dat7 (V16 m ρ) c).arrAt w cfg7.N :=
  exitOf_arr _ _ launch7.win.arr_inj w

theorem W1_keep (h : r ∉ hostOps0_W) :
    W1 m ρ c (Proc.devRef .tc r) = W0 m ρ c (Proc.devRef .tc r) :=
  StableHlo.after_of_writes_sub hostOps0 _ hostOps0_writes h
theorem W2_keep (h : r ≠ main_v21) :
    W2 m ρ c (Proc.devRef .tc r) = W1 m ρ c (Proc.devRef .tc r) :=
  exitOf_keep _ _ launch0.win.arr_inj (A_eq0 (V1 m ρ) c) (by decide) h
theorem W3_keep (h : r ∉ hostOps1_W) :
    W3 m ρ c (Proc.devRef .tc r) = W2 m ρ c (Proc.devRef .tc r) :=
  StableHlo.after_of_writes_sub hostOps1 _ hostOps1_writes h
theorem W4_keep (h : r ≠ main_v38) :
    W4 m ρ c (Proc.devRef .tc r) = W3 m ρ c (Proc.devRef .tc r) :=
  exitOf_keep _ _ launch1.win.arr_inj (A_eq1 (V3 m ρ) c) (by decide) h
theorem W5_keep (h : r ≠ main_v39) :
    W5 m ρ c (Proc.devRef .tc r) = W4 m ρ c (Proc.devRef .tc r) :=
  exitOf_keep _ _ launch2.win.arr_inj (A_eq2 (V4 m ρ) c) (by decide) h
theorem W6_keep (h : r ∉ hostOps3_W) :
    W6 m ρ c (Proc.devRef .tc r) = W5 m ρ c (Proc.devRef .tc r) :=
  StableHlo.after_of_writes_sub hostOps3 _ hostOps3_writes h
theorem W7_keep (h : r ≠ main_v56) :
    W7 m ρ c (Proc.devRef .tc r) = W6 m ρ c (Proc.devRef .tc r) :=
  exitOf_keep _ _ launch3.win.arr_inj (A_eq3 (V6 m ρ) c) (by decide) h
theorem W8_keep (h : r ≠ main_v57) :
    W8 m ρ c (Proc.devRef .tc r) = W7 m ρ c (Proc.devRef .tc r) :=
  exitOf_keep _ _ launch4.win.arr_inj (A_eq4 (V7 m ρ) c) (by decide) h
theorem W9_keep (h : r ∉ hostOps5_W) :
    W9 m ρ c (Proc.devRef .tc r) = W8 m ρ c (Proc.devRef .tc r) :=
  StableHlo.after_of_writes_sub hostOps5 _ hostOps5_writes h
theorem W10_keep (h : r ≠ main_v74) :
    W10 m ρ c (Proc.devRef .tc r) = W9 m ρ c (Proc.devRef .tc r) :=
  exitOf_keep _ _ launch5.win.arr_inj (A_eq5 (V9 m ρ) c) (by decide) h
theorem W11_keep (h : r ∉ hostOps6_W) :
    W11 m ρ c (Proc.devRef .tc r) = W10 m ρ c (Proc.devRef .tc r) :=
  StableHlo.after_of_writes_sub hostOps6 _ hostOps6_writes h
theorem W12_keep (h : r ∉ hostOps6_1_W) :
    W12 m ρ c (Proc.devRef .tc r) = W11 m ρ c (Proc.devRef .tc r) :=
  StableHlo.after_of_writes_sub hostOps6_1 _ hostOps6_1_writes h
theorem W13_keep (h : r ∉ hostOps6_2_W) :
    W13 m ρ c (Proc.devRef .tc r) = W12 m ρ c (Proc.devRef .tc r) :=
  StableHlo.after_of_writes_sub hostOps6_2 _ hostOps6_2_writes h
theorem W14_keep (h : r ∉ hostOps6_3_W) :
    W14 m ρ c (Proc.devRef .tc r) = W13 m ρ c (Proc.devRef .tc r) :=
  StableHlo.after_of_writes_sub hostOps6_3 _ hostOps6_3_writes h
theorem W15_keep (h : r ∉ hostOps6_4_W) :
    W15 m ρ c (Proc.devRef .tc r) = W14 m ρ c (Proc.devRef .tc r) :=
  StableHlo.after_of_writes_sub hostOps6_4 _ hostOps6_4_writes h
theorem W16_keep (h : r ≠ main_v78) :
    W16 m ρ c (Proc.devRef .tc r) = W15 m ρ c (Proc.devRef .tc r) :=
  exitOf_keep _ _ launch6.win.arr_inj (A_eq6 (V15 m ρ) c) (by decide) h
theorem W17_keep (h : r ≠ main_v79) :
    W17 m ρ c (Proc.devRef .tc r) = W16 m ρ c (Proc.devRef .tc r) :=
  exitOf_keep _ _ launch7.win.arr_inj (A_eq7 (V16 m ρ) c) (by decide) h

-- A reference no stretch writes and no region has as its output ends the run as launched.
theorem W17_unwritten
    (h : r ∉ hostOps0_W ∧ r ≠ main_v21 ∧ r ∉ hostOps1_W ∧ r ≠ main_v38 ∧ r ≠ main_v39 ∧ r ∉ hostOps3_W ∧ r ≠ main_v56 ∧ r ≠ main_v57 ∧ r ∉ hostOps5_W ∧ r ≠ main_v74 ∧ r ∉ hostOps6_W ∧ r ∉ hostOps6_1_W ∧ r ∉ hostOps6_2_W ∧ r ∉ hostOps6_3_W ∧ r ∉ hostOps6_4_W ∧ r ≠ main_v78 ∧ r ≠ main_v79) :
    W17 m ρ c (Proc.devRef .tc r) = W0 m ρ c (Proc.devRef .tc r) := by
  obtain ⟨h1, h2, h3, h4, h5, h6, h7, h8, h9, h10, h11, h12, h13, h14, h15, h16, h17⟩ := h
  exact (W17_keep m ρ c r h17).trans <| (W16_keep m ρ c r h16).trans <| (W15_keep m ρ c r h15).trans <| (W14_keep m ρ c r h14).trans <| (W13_keep m ρ c r h13).trans <| (W12_keep m ρ c r h12).trans <| (W11_keep m ρ c r h11).trans <| (W10_keep m ρ c r h10).trans <| (W9_keep m ρ c r h9).trans <| (W8_keep m ρ c r h8).trans <| (W7_keep m ρ c r h7).trans <| (W6_keep m ρ c r h6).trans <| (W5_keep m ρ c r h5).trans <| (W4_keep m ρ c r h4).trans <| (W3_keep m ρ c r h3).trans <| (W2_keep m ρ c r h2).trans <| W1_keep m ρ c r h1

end Cert.KernelIdeal.Hand
end
-- ==== Proof.KI.Run.lean ====
import proofs.«430582_j3058016715240_3_alg».proof.Proof.KI.RunFold
import Idealize.ShloMosaic.Lib.Pipeline.RegionsLoop
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ

variable (m : (ℓ : Loc nD τ sig) → Buf (Elt F) ℓ) (ρ : Dev nD → PrngReg)

-- Each region's proof data, at its entry valuation.
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V15 m ρ) c
  | ⟨7, _⟩ => fun c => dat7 (V16 m ρ) c
abbrev 𝒱₀ : Variants := Variants.none
abbrev L : GSem nD τ sig → Finset Unit := fun _ => ∅
abbrev lv : GSem nD τ sig → Unit → ℕ := fun _ _ => 0
-- Beside the buffers every item carries the generator register at some state and dues, none.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment from the valuation Wi to exitOf of it.
def regOf (p : Fin 8) (lf : Pipeline.LaunchFacts (nD := nD) (τ := τ) cfgs p) (Wi : Dev nD → Valuation τ sig (Elt F))
    (hbody : ∀ c, BodyObligation (pdats m ρ p c) (defs₀ (F := F)) Variants.none () Set.univ)
    (hq : ∀ c w, (pdats m ρ p c).q w = fullShare := by exact fun _ _ => rfl)
    (ho : ∀ c t, (pdats m ρ p c).owed t = 0 := by exact fun _ _ => rfl)
    (hr : ∀ c t, (pdats m ρ p c).recorded t = Set.univ := by exact fun _ _ => rfl)
    (hA : ∀ c w, (pdats m ρ p c).A w = Wi c (Proc.devRef .tc (Pipeline.arrRef (cfgs p).spec w)) := by exact fun _ _ => rfl)
    (hΦ0 : ∀ c, Pipeline.ΦA (cfgs p).spec c ⊢ (pdats m ρ p c).Φ 0 := by exact fun _ => .rfl)
    (hΦN : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (exitOf (Wi c) (pdats m ρ p c)) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]; refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (fun b => exitOf (Wi c) (pdats m ρ p c) b) ((pdats m ρ p c).arrAt · (cfgs p).N)
      (fun w => (exitOf_arr (Wi c) (pdats m ρ p c) lf.win.arr_inj w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

def reg0 := regOf m ρ 0 launch0 (W1 m ρ) (body_obligation0 (V1 m ρ))
def reg1 := regOf m ρ 1 launch1 (W3 m ρ) (body_obligation1 (V3 m ρ))
def reg2 := regOf m ρ 2 launch2 (W4 m ρ) (body_obligation2 (V4 m ρ))
def reg3 := regOf m ρ 3 launch3 (W6 m ρ) (body_obligation3 (V6 m ρ))
def reg4 := regOf m ρ 4 launch4 (W7 m ρ) (body_obligation4 (V7 m ρ))
def reg5 := regOf m ρ 5 launch5 (W9 m ρ) (body_obligation5 (V9 m ρ))
def reg6 := regOf m ρ 6 launch6 (W15 m ρ) (body_obligation6 (V15 m ρ)) (hΦ0 := hin6 (V15 m ρ)) (hΦN := hout6 (V15 m ρ))
def reg7 := regOf m ρ 7 launch7 (W16 m ρ) (body_obligation7 (V16 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .host (hseg hostOps6_1 hostOps6_1_sub hostOps6_1_fresh (W11 m ρ)),
    .host (hseg hostOps6_2 hostOps6_2_sub hostOps6_2_fresh (W12 m ρ)),
    .host (hseg hostOps6_3 hostOps6_3_sub hostOps6_3_fresh (W13 m ρ)),
    .host (hseg hostOps6_4 hostOps6_4_sub hostOps6_4_fresh (W14 m ρ)),
    .region (reg6 m ρ),
    .region (reg7 m ρ) ]

theorem main_run (c : Dev nD) : main (F := F) c = Pipeline.Seg.run (segs m ρ) := by
  rw [main_chain c, Pipeline.Seg.run_eq_chain]; rfl

set_option backward.isDefEq.respectTransparency.types false in
-- Every weakly fair run of @main from zero counters ends, each core's unscoped buffers at W17.
theorem run_all : θ_run defs (onTc (τ := τ) (main (F := F))) ⟨m, fun _ => 0, ρ⟩ (fun r => ∀ c : Dev nD,
      ∀ b ∈ Pipeline.ucRefs τ sig, r.2.mem ((c : Thread nD τ).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W17 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

-- @main runs, its result ends at W17's and every argument as launched.
theorem run_value : θ_run defs (onTc (τ := τ) (main (F := F))) ⟨m, fun _ => 0, ρ⟩ (fun r => ∀ c : Dev nD,
      r.2.mem ((c.tc : Thread nD τ).loc main_v79) = W17 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have k (b : Ref sig .tc) hu hw : r.2.mem ((c.tc : Thread nD τ).loc b) = m ((c.tc : Thread nD τ).loc b) :=
      (h c _ (mem_uc b hu)).trans (W17_unwritten m ρ c b hw)
    ⟨h c _ (mem_uc main_v79 (by decide)), k _ (by decide) (by decide), k _ (by decide) (by decide), k _ (by decide) (by decide), k _ (by decide) (by decide), k _ (by decide) (by decide), k _ (by decide) (by decide), k _ (by decide) (by decide), k _ (by decide) (by decide), k _ (by decide) (by decide), k _ (by decide) (by decide), k _ (by decide) (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.KernelIdeal.Hand
end
-- ==== Proof.Val.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Sh2 (a b : Nat) : Shape := ⟨2, ![a, b]⟩

-- A matrix product with each row scaled by its node's factor.
def lin {K : Nat} (X : (Sh2 50000 K).Idx → EReal) (W : (Sh2 K 64).Idx → EReal) (D : (Sh2 50000 1).Idx → EReal) :
    (Sh2 50000 64).Idx → EReal :=
  fun i => (∑ k : Fin K, X (ix2 (i 0) k) * W (ix2 k (i 1))) * D (ix2 (i 0) 0)

-- Aggregate plus own row, scaled by the node's factor, plus the bias.
def comb (A H : (Sh2 50000 64).Idx → EReal) (D : (Sh2 50000 1).Idx → EReal) (B : (Sh2 1 64).Idx → EReal) :
    (Sh2 50000 64).Idx → EReal :=
  fun i => (A i + H i) * D (ix2 (i 0) 0) + B (ix2 0 (i 1))

def combRelu (A H : (Sh2 50000 64).Idx → EReal) (D : (Sh2 50000 1).Idx → EReal) (B : (Sh2 1 64).Idx → EReal) :
    (Sh2 50000 64).Idx → EReal :=
  fun i => max (comb A H D B i) 0

def hot (g : Fin 64) (b : BitVec 32) : EReal := if BitVec.ofNat 32 g.val = b then 1 else 0

-- The sum of the rows labelled g over 7 blocks of 7168 rows.
def poolSum (L : (Sh2 1 50176).Idx → BitVec 32) (H : (Sh2 50176 64).Idx → EReal) (g : Fin 64) (f : Fin 64) : EReal :=
  ∑ t : Fin 7, ∑ r : Fin 7168, hot g (L (ix2 0 ⟨7168 * t.val + r.val, by omega⟩)) * H (ix2 ⟨7168 * t.val + r.val, by omega⟩ f)

def poolCnt (L : (Sh2 1 50176).Idx → BitVec 32) (g : Fin 64) : EReal :=
  ∑ t : Fin 7, ∑ r : Fin 7168, hot g (L (ix2 0 ⟨7168 * t.val + r.val, by omega⟩))

-- The mean row of each graph, an empty graph's count read as one.
def pool (L : (Sh2 1 50176).Idx → BitVec 32) (H : (Sh2 50176 64).Idx → EReal) : (Sh2 64 64).Idx → EReal :=
  fun i => Ideal.div (poolSum L H (i 0) (i 1)) (max (poolCnt L (i 0)) 1)

def cls (P : (Sh2 64 64).Idx → EReal) (W : (Sh2 64 16).Idx → EReal) (B : (Sh2 1 16).Idx → EReal) :
    (Sh2 64 16).Idx → EReal :=
  fun i => (∑ k : Fin 64, P (ix2 (i 0) k) * W (ix2 k (i 1))) + B (ix2 0 (i 1))

end Cert.Spec

end
-- ==== Proof.Val.KSpec.lean ====
import proofs.«430582_j3058016715240_3_alg».proof.KernelIdeal
import proofs.«430582_j3058016715240_3_alg».proof.Proof.Gen.KernelIdeal
import proofs.«430582_j3058016715240_3_alg».proof.Proof.Val.Spec

noncomputable section

namespace Cert.KernelIdeal.Val

open Cert.KernelIdeal Cert.KernelIdeal.Gen Idealize.ShloMosaic Idealize.ShloMosaic.ValueIdx Cert.Spec

def srcOf (ei : IVec S2x1600000 32) : IVec S1600000 32 :=
  shapeCast _ (extractStridedSlice S1x1600000 ![0, 0] ei slices_S2x1600000_S1x1600000_0_0) shapeCasts_S1x1600000_S1600000
def dstOf (ei : IVec S2x1600000 32) : IVec S1600000 32 :=
  shapeCast _ (extractStridedSlice S1x1600000 ![1, 0] ei slices_S2x1600000_S1x1600000_1_0) shapeCasts_S1x1600000_S1600000
-- A negative node index is counted from the end.
def nrm (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v
def bI (v : IVec S1600000 32) : IVec S1600000x1 32 := broadcastInDim S1600000x1 ![0] bcast_S1600000_S1600000x1_0 v

-- Each node's (1 + in-degree)^(-1/2).
def dinv1 (ei : IVec S2x1600000 32) : FVec Ideal S50000 .f32 :=
  Host.rsqrt (addf (Host.scatterAdd scatter_S50000_S1600000x1_S1600000_n_0_0_1
      (broadcastInDim S50000 ![] bcast_S_S50000 (constant S_ .f32 0x00000000#32)) (bI (nrm (dstOf ei)))
      (broadcastInDim S1600000 ![] bcast_S_S1600000 (constant S_ .f32 0x3F800000#32)))
    (broadcastInDim S50000 ![] bcast_S_S50000 (constant S_ .f32 0x3F800000#32)))
def dinv2 (ei : IVec S2x1600000 32) : FVec Ideal S50000x1 .f32 := shapeCast _ (dinv1 ei) shapeCasts_S50000_S50000x1

-- The rows of H at each edge's source, summed into the edge's target.
def agg (H : FVec Ideal S50000x64 .bf16) (ei : IVec S2x1600000 32) : FVec Ideal S50000x64 .f32 :=
  Host.scatterAdd scatter_S50000x64_S1600000x1_S1600000x64_1_0_0_1
    (broadcastInDim S50000x64 ![] bcast_S_S50000x64 (constant S_ .f32 0x00000000#32)) (bI (nrm (dstOf ei)))
    (extf .f32 (Host.gather gather_S50000x64_S1600000x1_S1600000x64_1_0_n_n_0_1_164 H (bI (nrm (srcOf ei)))) bitsLt_bf16_f32)

def r64 (b : FVec Ideal S64 .f32) : FVec Ideal S1x64 .f32 := shapeCast _ b shapeCasts_S64_S1x64
def r16 (b : FVec Ideal S16 .f32) : FVec Ideal S1x16 .f32 := shapeCast _ b shapeCasts_S16_S1x16

def padH (C : FVec Ideal S50000x64 .bf16) : FVec Ideal S50176x64 .bf16 :=
  pad S50176x64 ![0, 0] ![176, 0] ![0, 0] C (sitofp .bf16 (constantI S_ 32 0#32)) pads_S50000x64_S50176x64_01760_000 h_S_
def padL (batch : IVec S50000 32) : IVec S1x50176 32 :=
  shapeCast _ (pad S50176 ![0] ![176] ![0] batch (id (constantI S_ 32 4294967295#32)) pads_S50000_S50176_01760 h_S_) shapeCasts_S50176_S1x50176

-- Three normalised graph convolutions, the mean over each graph, the classifier.
def kout (x : FVec Ideal S50000x128 .f32) (ei : IVec S2x1600000 32) (batch : IVec S50000 32)
    (W0 : FVec Ideal S128x64 .f32) (b0 : FVec Ideal S64 .f32) (W1 : FVec Ideal S64x64 .f32) (b1 : FVec Ideal S64 .f32)
    (W2 : FVec Ideal S64x64 .f32) (b2 : FVec Ideal S64 .f32) (Wc : FVec Ideal S64x16 .f32) (bc : FVec Ideal S16 .f32) :
    FVec Ideal S64x16 .f32 :=
  let D := dinv2 ei
  let H1 : FVec Ideal S50000x64 .bf16 := lin x W0 D
  let C1 : FVec Ideal S50000x64 .bf16 := combRelu (agg H1 ei) H1 D (r64 b0)
  let H2 : FVec Ideal S50000x64 .bf16 := lin C1 W1 D
  let C2 : FVec Ideal S50000x64 .bf16 := combRelu (agg H2 ei) H2 D (r64 b1)
  let H3 : FVec Ideal S50000x64 .bf16 := lin C2 W2 D
  let C3 : FVec Ideal S50000x64 .bf16 := comb (agg H3 ei) H3 D (r64 b2)
  cls (pool (padL batch) (padH C3)) Wc (r16 bc)

end Cert.KernelIdeal.Val

end
-- ==== Proof.Val.HostReads.lean ====
import proofs.«430582_j3058016715240_3_alg».proof.Proof.Gen.KernelIdeal.Launch
import proofs.«430582_j3058016715240_3_alg».proof.Proof.Val.KSpec
import Idealize.ShloMosaic.Lib.StableHlo.Run

noncomputable section

namespace Cert.KernelIdeal.Val

open Cert.KernelIdeal Cert.KernelIdeal.Gen Idealize.ShloMosaic Idealize.ShloMosaic.StableHlo Idealize.ShloMosaic.TcCoe

variable (V : Valuation τ sig (Elt Ideal))

theorem hs0_v1 : after hostOps0 V main_v1 = srcOf (V main_arg1) := by after_results; rfl
theorem hs0_v3 : after hostOps0 V main_v3 = dstOf (V main_arg1) := by after_results; rfl
theorem hs0_v16 : after hostOps0 V main_v16 = dinv2 (V main_arg1) := by after_results_simp; rfl
theorem hs0_v17 : after hostOps0 V main_v17 = r64 (V main_arg4) := by after_results; rfl
theorem hs0_v18 : after hostOps0 V main_v18 = r64 (V main_arg6) := by after_results; rfl
theorem hs0_v19 : after hostOps0 V main_v19 = r64 (V main_arg8) := by after_results; rfl
theorem hs0_v20 : after hostOps0 V main_v20 = r16 (V main_arg10) := by after_results; rfl

-- The aggregation over the two index arrays of the edges.
def aggOf (H : FVec Ideal S50000x64 .bf16) (src dst : IVec S1600000 32) : FVec Ideal S50000x64 .f32 :=
  Host.scatterAdd scatter_S50000x64_S1600000x1_S1600000x64_1_0_0_1
    (broadcastInDim S50000x64 ![] bcast_S_S50000x64 (constant S_ .f32 0x00000000#32)) (bI (nrm dst))
    (extf .f32 (Host.gather gather_S50000x64_S1600000x1_S1600000x64_1_0_n_n_0_1_164 H (bI (nrm src))) bitsLt_bf16_f32)

theorem hs1_v37 : after hostOps1 V main_v37 = aggOf (V main_v21) (V main_v1) (V main_v3) := by after_results_simp; rfl
theorem hs3_v55 : after hostOps3 V main_v55 = aggOf (V main_v39) (V main_v1) (V main_v3) := by after_results_simp; rfl
theorem hs5_v73 : after hostOps5 V main_v73 = aggOf (V main_v57) (V main_v1) (V main_v3) := by after_results_simp; rfl

theorem hs6_v75 : after hostOps6_4 (after hostOps6_3 (after hostOps6_2 (after hostOps6_1 (after hostOps6 V)))) main_v75
    = padH (V main_v74) := by after_results; rfl
theorem hs6_v77 : after hostOps6_4 (after hostOps6_3 (after hostOps6_2 (after hostOps6_1 (after hostOps6 V)))) main_v77
    = padL (V main_arg2) := by after_results; rfl

end Cert.KernelIdeal.Val

end
-- ==== Proof.Val.KRegLib.lean ====
import proofs.«430582_j3058016715240_3_alg».proof.Proof.Gen.KernelIdeal.Skeleton
import proofs.«430582_j3058016715240_3_alg».proof.Proof.Val.Spec
import Idealize.ShloMosaic.Lib.Pipeline.Value
import Idealize.ShloMosaic.Lib.ValueLayout
import Idealize.ShloMosaic.Lib.ValueIdx
import Idealize.ShloMosaic.PureOps.Ideal.Laws
noncomputable section
open scoped BigOperators
namespace Cert.KernelIdeal.Val
open Idealize.ShloMosaic Idealize.ShloMosaic.ValueIdx Idealize.ShloMosaic.TcCoe Idealize.SL.Sem
open Idealize.ShloMosaic.Pipeline (Window Grid)
open Cert.Spec Cert.KernelIdeal Cert.KernelIdeal.Gen

theorem hz : (![0, 0] : Fin 2 → Nat) = fun _ => 0 := funext fun a => by fin_cases a <;> rfl

section Blocks
variable {sg : RefSig} {G : Grid} {Val : EltTy → Type} (w : Window sg G) (t : Fin G.N)

-- The array index of a block entry: the block's offsets plus the entry's coordinates.
theorem emb_val (y : (w.xblock (G.coords t)).Idx) (off : Fin w.shape.rank → Nat)
    (ho : ∀ a, w.index t a * w.size a = off a) (a : Fin w.shape.rank) : ((w.rect t).emb y a : Nat) = off a + y a :=
  (w.rect_emb_val t y a).trans (congrArg (· + (y a : Nat)) (ho a))

-- A block entry is the array's entry at the index whose coordinates are the offsets plus the entry's.
theorem blk_read (f : w.arr.view.ty.Contents Val) (x : (w.xblock (G.coords t)).Idx) (k : w.shape.Idx)
    (off : Fin w.shape.rank → Nat) (ho : ∀ a, w.index t a * w.size a = off a) (h : ∀ a, (k a : Nat) = off a + x a) :
    (w.blk t).view.read Val f x = w.arr.view.read Val f k :=
  congrArg (w.arr.view.read Val f) (funext fun a => Fin.ext ((emb_val w t x off ho a).trans (h a).symm))

-- An index within the block's range on every axis is in the block.
theorem mem_blk (i : w.shape.Idx)
    (h : ∀ a, w.index t a * w.size a ≤ i a ∧ (i a : Nat) < w.index t a * w.size a + w.xsize (G.coords t) a) :
    w.arr.view.emb i ∈ (w.blk t).view.set := by
  rw [show (w.blk t).view.set = (w.rect t).set.map w.arr.view.emb from View.set_slice _ _]
  exact Finset.mem_map_of_mem _ (Rect.mem_set_unit.mpr h)
end Blocks

-- Row `n` of the 50000 is in row block `n / 2000` of the 25, every column in the one column block.
theorem rows_cover {N : Nat} (hN : N = 25) (ix : Fin N → Fin 2 → Nat)
    (hix : ∀ t a, ix t a * S2000x64.size a = ![2000 * t.val, 0] a) (i : S50000x64.Idx) :
    ∃ t : Fin N, ∀ a, ix t a * S2000x64.size a ≤ (i a).val ∧ (i a).val < ix t a * S2000x64.size a + S2000x64.size a := by
  subst hN
  have h0 := idx2_lt0 i
  have h1 := idx2_lt1 i
  refine ⟨⟨(i 0).val / 2000, by omega⟩, fun a => ?_⟩
  rw [hix]
  match a with
  | ⟨0, _⟩ => show 2000 * ((i 0).val / 2000) ≤ (i 0).val ∧ (i 0).val < 2000 * ((i 0).val / 2000) + 2000; omega
  | ⟨1, _⟩ => show 0 ≤ (i 1).val ∧ (i 1).val < 0 + 64; omega

theorem bcol (x : FVec Ideal S2000x1 .f32) (p : Fin 2000) (q : Fin 64) :
    broadcastTo S2000x64 x broadcasts_S2000x1_S2000x64 (ix2 p q) = x (ix2 p 0) :=
  broadcastTo_apply x _ (ix2 p q) (ix2 p 0) fun a => by
    match a with
    | ⟨0, _⟩ => rfl
    | ⟨1, _⟩ => rfl

-- The combine payload at an entry: aggregate plus own row, scaled by the row's factor, plus the bias.
theorem combPay_apply (v0 : FVec Ideal S2000x64 .bf16) (v3 : FVec Ideal S2000x64 .f32) (v6 : FVec Ideal S2000x1 .f32)
    (v10 : FVec Ideal S1x64 .f32) (p : Fin 2000) (q : Fin 64) :
    k5_pay1 (F := Ideal) v0 v3 v6 v10 (ix2 p q) = (v3 (ix2 p q) + v0 (ix2 p q)) * v6 (ix2 p 0) + v10 (ix2 0 q) := by
  unfold k5_pay1
  simp only [shapeCast_self]
  show (v3 (ix2 p q) + v0 (ix2 p q)) * broadcastTo S2000x64 v6 broadcasts_S2000x1_S2000x64 (ix2 p q)
      + broadcastTo S2000x64 v10 broadcasts_S1x64_S2000x64 (ix2 p q) = _
  rw [bcol, broadcastTo_1b_ab_apply]

-- The payload followed by the positive part is the positive part of the payload.
theorem reluPay (v0 : FVec Ideal S2000x64 .bf16) (v3 : FVec Ideal S2000x64 .f32) (v6 : FVec Ideal S2000x1 .f32)
    (v10 : FVec Ideal S1x64 .f32) (j : S2000x64.Idx) :
    k1_pay1 (F := Ideal) v0 v3 v6 v10 j = max (k5_pay1 (F := Ideal) v0 v3 v6 v10 j) 0 := by
  show max _ (Ideal.ofBits .f32 0x00000000#32) = _
  rw [Ideal.ofBits_zero_f32]
  rfl

-- Blocks that read at `j` what the arrays hold at `i` (its row, its column) give the layer's function at `i`.
theorem comb_point (x0 : Vec Ideal S2000x64 .f32) (x1 : Vec Ideal S2000x64 .bf16) (x2 : Vec Ideal S2000x1 .f32) (x3 : Vec Ideal S1x64 .f32)
    (A H : (Sh2 50000 64).Idx → EReal) (D : (Sh2 50000 1).Idx → EReal) (B : (Sh2 1 64).Idx → EReal)
    (j : S2000x64.Idx) (i : (Sh2 50000 64).Idx) (h0 : x0 j = A i) (h1 : x1 j = H i)
    (h2 : x2 (ix2 (j 0) 0) = D (ix2 (i 0) 0)) (h3 : x3 (ix2 0 (j 1)) = B (ix2 0 (i 1))) :
    k5_pay1 x1 x0 x2 x3 j = comb A H D B i := by
  obtain ⟨p, q, rfl⟩ : ∃ (p : Fin 2000) (q : Fin 64), j = ix2 p q := ⟨j 0, j 1, eq_ix2 j⟩
  rw [combPay_apply, h0, h1, show x2 (ix2 p 0) = _ from h2, show x3 (ix2 0 q) = _ from h3]
  rfl

theorem combRelu_point (x0 : Vec Ideal S2000x64 .f32) (x1 : Vec Ideal S2000x64 .bf16) (x2 : Vec Ideal S2000x1 .f32) (x3 : Vec Ideal S1x64 .f32)
    (A H : (Sh2 50000 64).Idx → EReal) (D : (Sh2 50000 1).Idx → EReal) (B : (Sh2 1 64).Idx → EReal)
    (j : S2000x64.Idx) (i : (Sh2 50000 64).Idx) (h0 : x0 j = A i) (h1 : x1 j = H i)
    (h2 : x2 (ix2 (j 0) 0) = D (ix2 (i 0) 0)) (h3 : x3 (ix2 0 (j 1)) = B (ix2 0 (i 1))) :
    k1_pay1 x1 x0 x2 x3 j = combRelu A H D B i :=
  (reluPay x1 x0 x2 x3 j).trans (congrArg (max · 0) (comb_point x0 x1 x2 x3 A H D B j i h0 h1 h2 h3))

-- A product of `[M, K]` by `[K, N]` into a zero accumulator, at an entry: the sum over the `K` contraction positions.
theorem matmul_apply₂ {M K N : Nat} (d : DotDims (Sh2 M K) (Sh2 K N) (Sh2 M N)) (hr : d.contr.rank = 1)
    (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (a : FVec Ideal (Sh2 M K) .bf16) (b : FVec Ideal (Sh2 K N) .bf16) (p : Fin M) (q : Fin N) :
    matmul d none a b (constant (F := Ideal) (Sh2 M N) .f32 0x00000000#32) (ix2 p q) = ∑ k : Fin K, a (ix2 p k) * b (ix2 k q) := by
  refine (Ideal.matmul_constant_zero_apply d none a b (ix2 p q)).trans ?_
  rw [← Equiv.sum_comp (contrEquiv1 d K hr hs).symm]
  refine Finset.sum_congr rfl fun k _ => ?_
  have hk := contrEquiv1_symm_val d K hr hs k
  rw [show d.lhsIdx (ix2 p q) ((contrEquiv1 d K hr hs).symm k) = ix2 p k from Shape.idx_ext₂ (hl0 _ _) ((hl1 _ _).trans hk),
    show d.rhsIdx (ix2 p q) ((contrEquiv1 d K hr hs).symm k) = ix2 k q from Shape.idx_ext₂ ((hr0 _ _).trans hk) (hr1 _ _)]

theorem dot64_apply (a : FVec Ideal S2000x64 .bf16) (b : FVec Ideal S64x64 .bf16) (p : Fin 2000) (q : Fin 64) :
    matmul dot_S2000x64_S64x64_S2000x64_1_0_0_1_n_n none a b (constant (F := Ideal) S2000x64 .f32 0x00000000#32) (ix2 p q) = ∑ k : Fin 64, a (ix2 p k) * b (ix2 k q) :=
  matmul_apply₂ dot_S2000x64_S64x64_S2000x64_1_0_0_1_n_n rfl rfl (fun _ _ => rfl) (fun i q => dot_S2000x64_S64x64_S2000x64_1_0_0_1_n_n.lhsIdx_val_of_single rfl i q)
    (fun i q => dot_S2000x64_S64x64_S2000x64_1_0_0_1_n_n.rhsIdx_val_of_single rfl i q) (fun _ _ => rfl) a b p q

theorem dot128_apply (a : FVec Ideal S2000x128 .bf16) (b : FVec Ideal S128x64 .bf16) (p : Fin 2000) (q : Fin 64) :
    matmul dot_S2000x128_S128x64_S2000x64_1_0_0_1_n_n none a b (constant (F := Ideal) S2000x64 .f32 0x00000000#32) (ix2 p q) = ∑ k : Fin 128, a (ix2 p k) * b (ix2 k q) :=
  matmul_apply₂ dot_S2000x128_S128x64_S2000x64_1_0_0_1_n_n rfl rfl (fun _ _ => rfl) (fun i q => dot_S2000x128_S128x64_S2000x64_1_0_0_1_n_n.lhsIdx_val_of_single rfl i q)
    (fun i q => dot_S2000x128_S128x64_S2000x64_1_0_0_1_n_n.rhsIdx_val_of_single rfl i q) (fun _ _ => rfl) a b p q

-- Blocks that read, along `j`'s row and column, what `X`, `W`, `D` hold along `i`'s turn the row-by-column sum times the scale into `lin X W D i`.
theorem lin_point {K : Nat} (x0 : (Sh2 2000 K).Idx → EReal) (x1 : (Sh2 K 64).Idx → EReal) (x2 : (Sh2 2000 1).Idx → EReal)
    (X : (Sh2 50000 K).Idx → EReal) (W : (Sh2 K 64).Idx → EReal) (D : (Sh2 50000 1).Idx → EReal)
    (p : Fin 2000) (q : Fin 64) (i : (Sh2 50000 64).Idx)
    (h0 : ∀ k, x0 (ix2 p k) = X (ix2 (i 0) k)) (h1 : ∀ k, x1 (ix2 k q) = W (ix2 k (i 1))) (h2 : x2 (ix2 p 0) = D (ix2 (i 0) 0)) :
    (∑ k : Fin K, x0 (ix2 p k) * x1 (ix2 k q)) * x2 (ix2 p 0) = lin X W D i := by
  rw [h2]
  exact congrArg (· * D (ix2 (i 0) 0)) (Finset.sum_congr rfl fun k _ => by rw [h0, h1])

theorem lin64_point (x0 : Vec Ideal S2000x64 .bf16) (x1 : Vec Ideal S64x64 .f32) (x2 : Vec Ideal S2000x1 .f32)
    (X : (Sh2 50000 64).Idx → EReal) (W : (Sh2 64 64).Idx → EReal) (D : (Sh2 50000 1).Idx → EReal)
    (j : S2000x64.Idx) (i : (Sh2 50000 64).Idx) (h0 : ∀ k, x0 (ix2 (j 0) k) = X (ix2 (i 0) k))
    (h1 : ∀ k, x1 (ix2 k (j 1)) = W (ix2 k (i 1))) (h2 : x2 (ix2 (j 0) 0) = D (ix2 (i 0) 0)) :
    k2_pay1 x0 x1 x2 j = lin X W D i := by
  obtain ⟨p, q, rfl⟩ : ∃ (p : Fin 2000) (q : Fin 64), j = ix2 p q := ⟨j 0, j 1, eq_ix2 j⟩
  refine Eq.trans ?_ (lin_point x0 x1 x2 X W D p q i h0 h1 h2)
  unfold k2_pay1
  rw [truncf_apply, mulf_apply, dot64_apply, shapeCast_self, bcol, shapeCast_self]
  rfl

theorem lin128_point (x0 : Vec Ideal S2000x128 .f32) (x1 : Vec Ideal S128x64 .f32) (x2 : Vec Ideal S2000x1 .f32)
    (X : (Sh2 50000 128).Idx → EReal) (W : (Sh2 128 64).Idx → EReal) (D : (Sh2 50000 1).Idx → EReal)
    (j : S2000x64.Idx) (i : (Sh2 50000 64).Idx) (h0 : ∀ k, x0 (ix2 (j 0) k) = X (ix2 (i 0) k))
    (h1 : ∀ k, x1 (ix2 k (j 1)) = W (ix2 k (i 1))) (h2 : x2 (ix2 (j 0) 0) = D (ix2 (i 0) 0)) :
    k0_pay1 x0 x1 x2 j = lin X W D i := by
  obtain ⟨p, q, rfl⟩ : ∃ (p : Fin 2000) (q : Fin 64), j = ix2 p q := ⟨j 0, j 1, eq_ix2 j⟩
  refine Eq.trans ?_ (lin_point x0 x1 x2 X W D p q i h0 h1 h2)
  unfold k0_pay1
  rw [truncf_apply, mulf_apply, dot128_apply, shapeCast_self, bcol]
  rfl

end Cert.KernelIdeal.Val
end
-- ==== Proof.Val.KReg0.lean ====
import proofs.«430582_j3058016715240_3_alg».proof.Proof.KI.Reg0
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the weight at its origin.
theorem off0 : ∀ t : Fin cfg0.N,
    (∀ a : Fin 2, win0_0.index t a * win0_0.size a = ![2000 * t.val, 0] a) ∧ (∀ a : Fin 2, win0_1.index t a * win0_1.size a = ![0, 0] a)
    ∧ (∀ a : Fin 2, win0_2.index t a * win0_2.size a = ![2000 * t.val, 0] a) ∧ (∀ a : Fin 2, win0_3.index t a * win0_3.size a = ![2000 * t.val, 0] a) :=
  (by decide +kernel : ∀ t : Fin grid0.N, _)

theorem final0 (c : Dev nD) :
    (dat0 V c).arrAt 3 cfg0.N = lin (K := 128) (V c main_arg0) (V c main_arg3) (V c main_v16) := by
  refine (dat0 V c).arrAt_eq_of_cover 3 _ (fun t _ => ?_) fun i => ?_
  · obtain ⟨o0, o1, o2, o3⟩ := off0 t
    show (cfg0.win 3).cut (grid0.coords t) ((dat0 V c).after 3 t) = _
    rw [after0_3]
    unfold out0_3
    rw [View.canon_unit_zero hz, View.ld_unit_zero hz, View.ld_unit_zero hz, View.ld_unit_zero hz]
    funext j
    have hk := emb_val win0_3 t j _ o3
    exact lin128_point _ _ _ _ _ _ j _ (fun k => blk_read win0_0 t _ _ _ _ o0 (Fin.forall_fin_two.mpr ⟨hk 0, (Nat.zero_add _).symm⟩))
      (fun k => blk_read win0_1 t _ _ _ _ o1 (Fin.forall_fin_two.mpr ⟨(Nat.zero_add _).symm, hk 1⟩))
      (blk_read win0_2 t _ _ _ _ o2 (Fin.forall_fin_two.mpr ⟨hk 0, rfl⟩))
  · obtain ⟨t, h⟩ := rows_cover N_0 win0_3.index (fun t => (off0 t).2.2.2) i
    exact ⟨t, flush0_3 t, mem_blk win0_3 t i h⟩

end Cert.KernelIdeal.Val
end
-- ==== Proof.Val.KReg1.lean ====
import proofs.«430582_j3058016715240_3_alg».proof.Proof.KI.Reg1
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the bias at its origin.
theorem off1 : ∀ t : Fin cfg1.N,
    (∀ a : Fin 2, win1_0.index t a * win1_0.size a = ![2000 * t.val, 0] a) ∧ (∀ a : Fin 2, win1_1.index t a * win1_1.size a = ![2000 * t.val, 0] a)
    ∧ (∀ a : Fin 2, win1_2.index t a * win1_2.size a = ![2000 * t.val, 0] a) ∧ (∀ a : Fin 2, win1_3.index t a * win1_3.size a = ![0, 0] a)
    ∧ (∀ a : Fin 2, win1_4.index t a * win1_4.size a = ![2000 * t.val, 0] a) :=
  (by decide +kernel : ∀ t : Fin grid1.N, _)

theorem final1 (c : Dev nD) : (dat1 V c).arrAt 4 cfg1.N = combRelu (V c main_v37) (V c main_v21) (V c main_v16) (V c main_v17) := by
  refine (dat1 V c).arrAt_eq_of_cover 4 _ (fun t _ => ?_) fun i => ?_
  · obtain ⟨o0, o1, o2, o3, o4⟩ := off1 t
    show (cfg1.win 4).cut (grid1.coords t) ((dat1 V c).after 4 t) = _
    rw [after1_4]
    unfold out1_4
    rw [View.canon_unit_zero hz, View.ld_unit_zero hz, View.ld_unit_zero hz, View.ld_unit_zero hz, View.ld_unit_zero hz]
    funext j
    have hk := emb_val win1_4 t j _ o4
    exact combRelu_point _ _ _ _ _ _ _ _ j _ (blk_read win1_0 t _ j _ _ o0 hk) (blk_read win1_1 t _ j _ _ o1 hk)
      (blk_read win1_2 t _ _ _ _ o2 (Fin.forall_fin_two.mpr ⟨hk 0, rfl⟩))
      (blk_read win1_3 t _ _ _ _ o3 (Fin.forall_fin_two.mpr ⟨rfl, hk 1⟩))
  · obtain ⟨t, h⟩ := rows_cover N_1 win1_4.index (fun t => (off1 t).2.2.2.2) i
    exact ⟨t, flush1_4 t, mem_blk win1_4 t i h⟩

end Cert.KernelIdeal.Val
end
-- ==== Proof.Val.KReg2.lean ====
import proofs.«430582_j3058016715240_3_alg».proof.Proof.KI.Reg2
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the weight at its origin.
theorem off2 : ∀ t : Fin cfg2.N,
    (∀ a : Fin 2, win2_0.index t a * win2_0.size a = ![2000 * t.val, 0] a) ∧ (∀ a : Fin 2, win2_1.index t a * win2_1.size a = ![0, 0] a)
    ∧ (∀ a : Fin 2, win2_2.index t a * win2_2.size a = ![2000 * t.val, 0] a) ∧ (∀ a : Fin 2, win2_3.index t a * win2_3.size a = ![2000 * t.val, 0] a) :=
  (by decide +kernel : ∀ t : Fin grid2.N, _)

theorem final2 (c : Dev nD) :
    (dat2 V c).arrAt 3 cfg2.N = lin (K := 64) (V c main_v38) (V c main_arg5) (V c main_v16) := by
  refine (dat2 V c).arrAt_eq_of_cover 3 _ (fun t _ => ?_) fun i => ?_
  · obtain ⟨o0, o1, o2, o3⟩ := off2 t
    show (cfg2.win 3).cut (grid2.coords t) ((dat2 V c).after 3 t) = _
    rw [after2_3]
    unfold out2_3
    rw [View.canon_unit_zero hz, View.ld_unit_zero hz, View.ld_unit_zero hz, View.ld_unit_zero hz]
    funext j
    have hk := emb_val win2_3 t j _ o3
    exact lin64_point _ _ _ _ _ _ j _ (fun k => blk_read win2_0 t _ _ _ _ o0 (Fin.forall_fin_two.mpr ⟨hk 0, (Nat.zero_add _).symm⟩))
      (fun k => blk_read win2_1 t _ _ _ _ o1 (Fin.forall_fin_two.mpr ⟨(Nat.zero_add _).symm, hk 1⟩))
      (blk_read win2_2 t _ _ _ _ o2 (Fin.forall_fin_two.mpr ⟨hk 0, rfl⟩))
  · obtain ⟨t, h⟩ := rows_cover N_2 win2_3.index (fun t => (off2 t).2.2.2) i
    exact ⟨t, flush2_3 t, mem_blk win2_3 t i h⟩

end Cert.KernelIdeal.Val
end
-- ==== Proof.Val.KReg3.lean ====
import proofs.«430582_j3058016715240_3_alg».proof.Proof.KI.Reg3
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the bias at its origin.
theorem off3 : ∀ t : Fin cfg3.N,
    (∀ a : Fin 2, win3_0.index t a * win3_0.size a = ![2000 * t.val, 0] a) ∧ (∀ a : Fin 2, win3_1.index t a * win3_1.size a = ![2000 * t.val, 0] a)
    ∧ (∀ a : Fin 2, win3_2.index t a * win3_2.size a = ![2000 * t.val, 0] a) ∧ (∀ a : Fin 2, win3_3.index t a * win3_3.size a = ![0, 0] a)
    ∧ (∀ a : Fin 2, win3_4.index t a * win3_4.size a = ![2000 * t.val, 0] a) :=
  (by decide +kernel : ∀ t : Fin grid3.N, _)

theorem final3 (c : Dev nD) : (dat3 V c).arrAt 4 cfg3.N = combRelu (V c main_v55) (V c main_v39) (V c main_v16) (V c main_v18) := by
  refine (dat3 V c).arrAt_eq_of_cover 4 _ (fun t _ => ?_) fun i => ?_
  · obtain ⟨o0, o1, o2, o3, o4⟩ := off3 t
    show (cfg3.win 4).cut (grid3.coords t) ((dat3 V c).after 4 t) = _
    rw [after3_4]
    unfold out3_4
    rw [View.canon_unit_zero hz, View.ld_unit_zero hz, View.ld_unit_zero hz, View.ld_unit_zero hz, View.ld_unit_zero hz]
    funext j
    have hk := emb_val win3_4 t j _ o4
    exact combRelu_point _ _ _ _ _ _ _ _ j _ (blk_read win3_0 t _ j _ _ o0 hk) (blk_read win3_1 t _ j _ _ o1 hk)
      (blk_read win3_2 t _ _ _ _ o2 (Fin.forall_fin_two.mpr ⟨hk 0, rfl⟩))
      (blk_read win3_3 t _ _ _ _ o3 (Fin.forall_fin_two.mpr ⟨rfl, hk 1⟩))
  · obtain ⟨t, h⟩ := rows_cover N_3 win3_4.index (fun t => (off3 t).2.2.2.2) i
    exact ⟨t, flush3_4 t, mem_blk win3_4 t i h⟩

end Cert.KernelIdeal.Val
end
-- ==== Proof.Val.KReg4.lean ====
import proofs.«430582_j3058016715240_3_alg».proof.Proof.KI.Reg4
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the weight at its origin.
theorem off4 : ∀ t : Fin cfg4.N,
    (∀ a : Fin 2, win4_0.index t a * win4_0.size a = ![2000 * t.val, 0] a) ∧ (∀ a : Fin 2, win4_1.index t a * win4_1.size a = ![0, 0] a)
    ∧ (∀ a : Fin 2, win4_2.index t a * win4_2.size a = ![2000 * t.val, 0] a) ∧ (∀ a : Fin 2, win4_3.index t a * win4_3.size a = ![2000 * t.val, 0] a) :=
  (by decide +kernel : ∀ t : Fin grid4.N, _)

theorem final4 (c : Dev nD) :
    (dat4 V c).arrAt 3 cfg4.N = lin (K := 64) (V c main_v56) (V c main_arg7) (V c main_v16) := by
  refine (dat4 V c).arrAt_eq_of_cover 3 _ (fun t _ => ?_) fun i => ?_
  · obtain ⟨o0, o1, o2, o3⟩ := off4 t
    show (cfg4.win 3).cut (grid4.coords t) ((dat4 V c).after 3 t) = _
    rw [after4_3]
    unfold out4_3
    rw [View.canon_unit_zero hz, View.ld_unit_zero hz, View.ld_unit_zero hz, View.ld_unit_zero hz]
    funext j
    have hk := emb_val win4_3 t j _ o3
    exact lin64_point _ _ _ _ _ _ j _ (fun k => blk_read win4_0 t _ _ _ _ o0 (Fin.forall_fin_two.mpr ⟨hk 0, (Nat.zero_add _).symm⟩))
      (fun k => blk_read win4_1 t _ _ _ _ o1 (Fin.forall_fin_two.mpr ⟨(Nat.zero_add _).symm, hk 1⟩))
      (blk_read win4_2 t _ _ _ _ o2 (Fin.forall_fin_two.mpr ⟨hk 0, rfl⟩))
  · obtain ⟨t, h⟩ := rows_cover N_4 win4_3.index (fun t => (off4 t).2.2.2) i
    exact ⟨t, flush4_3 t, mem_blk win4_3 t i h⟩

end Cert.KernelIdeal.Val
end
-- ==== Proof.Val.KReg5.lean ====
import proofs.«430582_j3058016715240_3_alg».proof.Proof.KI.Reg5
import proofs.«430582_j3058016715240_3_alg».proof.Proof.Val.KRegLib
noncomputable section
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem
variable (V : (c : Dev nD) → (b : Ref sig .tc) → Buf (Elt Ideal) ((c : Thread nD τ).loc b))

-- Where each window's block starts at point `t`: the row windows at row `2000 t`, the bias at its origin.
theorem off5 : ∀ t : Fin cfg5.N,
    (∀ a : Fin 2, win5_0.index t a * win5_0.size a = ![2000 * t.val, 0] a) ∧ (∀ a : Fin 2, win5_1.index t a * win5_1.size a = ![2000 * t.val, 0] a)
    ∧ (∀ a : Fin 2, win5_2.index t a * win5_2.size a = ![2000 * t.val, 0] a) ∧ (∀ a : Fin 2, win5_3.index t a * win5_3.size a = ![0, 0] a)
    ∧ (∀ a : Fin 2, win5_4.index t a * win5_4.size a = ![2000 * t.val, 0] a) :=
  (by decide +kernel : ∀ t : Fin grid5.N, _)

theorem final5 (c : Dev nD) : (dat5 V c).arrAt 4 cfg5.N = comb (V c main_v73) (V c main_v57) (V c main_v16) (V c main_v19) := by
  refine (dat5 V c).arrAt_eq_of_cover 4 _ (fun t _ => ?_) fun i => ?_
  · obtain ⟨o0, o1, o2, o3, o4⟩ := off5 t
    show (cfg5.win 4).cut (grid5.coords t) ((dat5 V c).after 4 t) = _
    rw [after5_4]
    unfold out5_4
    rw [View.canon_unit_zero hz, View.ld_unit_zero hz, View.ld_unit_zero hz, View.ld_unit_zero hz, View.ld_unit_zero hz]
    funext j
    have hk := emb_val win5_4 t j _ o4
    exact comb_point _ _ _ _ _ _ _ _ j _ (blk_read win5_0 t _ j _ _ o0 hk) (blk_read win5_1 t _ j _ _ o1 hk)
      (blk_read win5_2 t _ _ _ _ o2 (Fin.forall_fin_two.mpr ⟨hk 0, rfl⟩))
      (blk_read win5_3 t _ _ _ _ o3 (Fin.forall_fin_two.mpr ⟨rfl, hk 1⟩))
  · obtain ⟨t, h⟩ := rows_cover N_5 win5_4.index (fun t => (off5 t).2.2.2.2) i
    exact ⟨t, flush5_4 t, mem_blk win5_4 t i h⟩

end Cert.KernelIdeal.Val
end
-- ==== Proof.Val.KChainA.lean ====
import proofs.«430582_j3058016715240_3_alg».proof.Proof.KI.RunFold
import proofs.«430582_j3058016715240_3_alg».proof.Proof.Val.KSpec
import proofs.«430582_j3058016715240_3_alg».proof.Proof.Val.HostReads
import proofs.«430582_j3058016715240_3_alg».proof.Proof.Val.KReg0
import proofs.«430582_j3058016715240_3_alg».proof.Proof.Val.KReg1
import proofs.«430582_j3058016715240_3_alg».proof.Proof.Val.KReg2
import proofs.«430582_j3058016715240_3_alg».proof.Proof.Val.KReg3
import proofs.«430582_j3058016715240_3_alg».proof.Proof.Val.KReg4
import proofs.«430582_j3058016715240_3_alg».proof.Proof.Val.KReg5

noncomputable section

namespace Cert.KernelIdeal.Val

open Cert.KernelIdeal Cert.KernelIdeal.Gen
open Idealize.ShloMosaic Idealize.ShloMosaic.TcCoe Idealize.ShloMosaic.ValueIdx Cert.Spec
open Idealize.SL.Sem

-- One graph convolution: the scaled product, its sum along the edges, and the two combined by `f`.
def conv {K : Nat} (f : type_of% comb) (X : (Sh2 50000 K).Idx → EReal) (W : (Sh2 K 64).Idx → EReal)
    (ei : IVec S2x1600000 32) (b : FVec Ideal S64 .f32) : FVec Ideal S50000x64 .bf16 :=
  f (agg (lin X W (dinv2 ei)) ei) (lin X W (dinv2 ei)) (dinv2 ei) (r64 b)

-- A convolution read off its three items: the product `H`, the sum `A` over the edges, the output `O`.
theorem conv_eq {K : Nat} {f : type_of% comb} {X X' : (Sh2 50000 K).Idx → EReal} {W W' D D' B ei b s d H H' A O}
    (hH : H = lin X' W' D) (hA : A = aggOf H s d) (hO : O = f A H' D' B) (hH' : H' = H)
    (hX : X' = X) (hW : W' = W) (hD : D = dinv2 ei) (hD' : D' = dinv2 ei) (hs : s = srcOf ei) (hd : d = dstOf ei)
    (hB : B = r64 b) : O = conv f X W ei b := by
  subst_vars; rfl

variable (m : (ℓ : Loc nD τ sig) → Buf (Elt Ideal) ℓ) {ρ : Dev nD → PrngReg} (c : Dev nD)

abbrev argOf (r : Ref sig .tc) : Buf (Elt Ideal) ((c : Thread nD τ).loc r) := m ((c : Thread nD τ).loc r)

abbrev C1 := conv combRelu (argOf m c main_arg0) (argOf m c main_arg3) (argOf m c main_arg1) (argOf m c main_arg4)
abbrev C2 := conv combRelu (C1 m c) (argOf m c main_arg5) (argOf m c main_arg1) (argOf m c main_arg6)
abbrev C3 := conv comb (C2 m c) (argOf m c main_arg7) (argOf m c main_arg1) (argOf m c main_arg8)

variable {m c}

-- No item after the first stretch writes `r`.
abbrev NW (r : Ref sig .tc) : Prop :=
  r ≠ main_v21 ∧ r ∉ hostOps1_W ∧ r ≠ main_v38 ∧ r ≠ main_v39 ∧ r ∉ hostOps3_W ∧ r ≠ main_v56 ∧ r ≠ main_v57
    ∧ r ∉ hostOps5_W ∧ r ≠ main_v74 ∧ r ∉ hostOps6_W ∧ r ∉ hostOps6_1_W ∧ r ∉ hostOps6_2_W ∧ r ∉ hostOps6_3_W
    ∧ r ∉ hostOps6_4_W ∧ r ≠ main_v78

section
variable {r : Ref sig .tc} {x : type_of% (Hand.W1 m ρ c r)} (h1 : Hand.W1 m ρ c r = x) (h : NW r := by decide)
include h1 h

theorem keep2 : Hand.W2 m ρ c r = x := (Hand.W2_keep m ρ c r h.1).trans h1
theorem keep3 : Hand.W3 m ρ c r = x := (Hand.W3_keep m ρ c r h.2.1).trans (keep2 h1 h)
theorem keep4 : Hand.W4 m ρ c r = x := (Hand.W4_keep m ρ c r h.2.2.1).trans (keep3 h1 h)
theorem keep5 : Hand.W5 m ρ c r = x := (Hand.W5_keep m ρ c r h.2.2.2.1).trans (keep4 h1 h)
theorem keep6 : Hand.W6 m ρ c r = x := (Hand.W6_keep m ρ c r h.2.2.2.2.1).trans (keep5 h1 h)
theorem keep7 : Hand.W7 m ρ c r = x := (Hand.W7_keep m ρ c r h.2.2.2.2.2.1).trans (keep6 h1 h)
theorem keep8 : Hand.W8 m ρ c r = x := (Hand.W8_keep m ρ c r h.2.2.2.2.2.2.1).trans (keep7 h1 h)
theorem keep9 : Hand.W9 m ρ c r = x := (Hand.W9_keep m ρ c r h.2.2.2.2.2.2.2.1).trans (keep8 h1 h)
theorem keep10 : Hand.W10 m ρ c r = x := (Hand.W10_keep m ρ c r h.2.2.2.2.2.2.2.2.1).trans (keep9 h1 h)
theorem keep16 : Hand.W16 m ρ c r = x :=
  have ⟨_, _, _, _, _, _, _, _, _, h11, h12, h13, h14, h15, h16⟩ := h
  (Hand.W16_keep m ρ c r h16).trans <| (Hand.W15_keep m ρ c r h15).trans <| (Hand.W14_keep m ρ c r h14).trans <|
    (Hand.W13_keep m ρ c r h13).trans <| (Hand.W12_keep m ρ c r h12).trans <| (Hand.W11_keep m ρ c r h11).trans
      (keep10 h1 h)
end

theorem w1_arg (r : Ref sig .tc) (h : r ∉ hostOps0_W := by decide)
    (h0 : Hand.W0 m ρ c r = argOf m c r := by rfl) : Hand.W1 m ρ c r = argOf m c r :=
  (Hand.W1_keep m ρ c r h).trans h0

theorem w1_v1 : Hand.W1 m ρ c main_v1 = srcOf (argOf m c main_arg1) := hs0_v1 _
theorem w1_v3 : Hand.W1 m ρ c main_v3 = dstOf (argOf m c main_arg1) := hs0_v3 _
theorem w1_v16 : Hand.W1 m ρ c main_v16 = dinv2 (argOf m c main_arg1) := hs0_v16 _

theorem w4_v38 : Hand.W4 m ρ c main_v38 = C1 m c :=
  conv_eq ((Hand.W2_arr m ρ c 3).trans (final0 (Hand.V1 m ρ) c)) (hs1_v37 _)
    ((Hand.W4_arr m ρ c 4).trans (final1 (Hand.V3 m ρ) c)) (Hand.W3_keep m ρ c main_v21 (by decide))
    (w1_arg main_arg0) (w1_arg main_arg3) w1_v16 (keep3 w1_v16) (keep2 w1_v1) (keep2 w1_v3)
    (keep3 (hs0_v17 _))

theorem w7_v56 : Hand.W7 m ρ c main_v56 = C2 m c :=
  conv_eq ((Hand.W5_arr m ρ c 3).trans (final2 (Hand.V4 m ρ) c)) (hs3_v55 _)
    ((Hand.W7_arr m ρ c 4).trans (final3 (Hand.V6 m ρ) c)) (Hand.W6_keep m ρ c main_v39 (by decide))
    w4_v38 (keep4 (w1_arg main_arg5)) (keep4 w1_v16) (keep6 w1_v16) (keep5 w1_v1)
    (keep5 w1_v3) (keep6 (hs0_v18 _))

theorem w10_v74 : Hand.W10 m ρ c main_v74 = C3 m c :=
  conv_eq ((Hand.W8_arr m ρ c 3).trans (final4 (Hand.V7 m ρ) c)) (hs5_v73 _)
    ((Hand.W10_arr m ρ c 4).trans (final5 (Hand.V9 m ρ) c)) (Hand.W9_keep m ρ c main_v57 (by decide))
    w7_v56 (keep7 (w1_arg main_arg7)) (keep7 w1_v16) (keep9 w1_v16) (keep8 w1_v1)
    (keep8 w1_v3) (keep9 (hs0_v19 _))

end Cert.KernelIdeal.Val

end
-- ==== Proof.Val.KReg6Pay.lean ====
import proofs.«430582_j3058016715240_3_alg».proof.Proof.Val.KRegLib
import Idealize.ShloMosaic.Lib.IdealHost
noncomputable section
open scoped BigOperators
namespace Cert.KernelIdeal.Val
open Cert.KernelIdeal Cert.KernelIdeal.Gen Cert.Spec
open Idealize.ShloMosaic Idealize.ShloMosaic.ValueIdx

-- A column laid along every column position reads, at `(p, c)`, the column's entry at `p`.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h (ix2 p c) (ix2 p (0 : Fin 1)) fun ax => by
    match ax with
    | ⟨0, _⟩ =>
      show p.val = if a = 1 then 0 else p.val
      split
      · have := p.isLt; omega
      · rfl
    | ⟨1, _⟩ => rfl

theorem pay6_1_apply (j : S64x64.Idx) : k6_pay1 (F := Ideal) j = 0 := by
  unfold k6_pay1
  rw [shapeCast_self]
  exact Ideal.ofBits_zero_f32

theorem pay6_2_apply (j : S64x1.Idx) : k6_pay2 (F := Ideal) j = 0 := by
  unfold k6_pay2
  rw [shapeCast_self]
  exact Ideal.ofBits_zero_f32

-- The mean: the sum over the count, an empty graph's count read as one.
theorem pay6_apply (v30 : Vec Ideal S64x64 .f32) (v31 : Vec Ideal S64x1 .f32) (g f : Fin 64) :
    k6_pay6 (F := Ideal) v30 v31 (ix2 g f) = Ideal.div (v30 (ix2 g f)) (max (v31 (ix2 g (0 : Fin 1))) 1) := by
  unfold k6_pay6
  rw [divf_apply, broadcastTo_a1_ab_apply, maximumf_apply, broadcast_apply]
  show Ideal.div _ (max _ (Ideal.ofBits .f32 0x3F800000#32)) = _
  rw [Ideal.ofBits_one_f32]

-- A word compare for equality, widened and read as a signed integer, is one where the words agree and zero elsewhere.
theorem eq_bit_toReal (a b : BitVec 32) :
    ((((IntOp.cmpi .eq a b).setWidth 32).toInt : ℝ) : EReal) = if a = b then 1 else 0 := by
  by_cases h : a = b
  · subst h; simp [IntOp.cmpi]
  · have hb : (a == b) = false := by simpa using h
    simp [IntOp.cmpi, hb, h]

-- The mask at `(g, r)`: one where row `r`'s label is graph `g`.
theorem pay6_3_apply (v4 : Vec Ideal S1x7168 .i32) (g : Fin 64) (r : Fin 7168) :
    k6_pay3 (F := Ideal) v4 (ix2 g r) = hot g (v4 (ix2 (0 : Fin 1) r)) := by
  unfold k6_pay3
  simp only [shapeCast_self]
  rw [sitofp_apply, extui_apply]
  show ((((IntOp.cmpi .eq (broadcastTo S64x7168 (iota .tc S64x1 32 [0] iota_S64x1_d0_w32) broadcasts_S64x1_S64x7168 (ix2 g r))
      (broadcastTo S64x7168 v4 broadcasts_S1x7168_S64x7168 (ix2 g r))).setWidth 32).toInt : ℝ) : EReal) = _
  rw [broadcastTo_a1_ab_apply, broadcastTo_1b_ab_apply, eq_bit_toReal]
  unfold hot
  rw [show iota .tc S64x1 32 [0] iota_S64x1_d0_w32 (ix2 g (0 : Fin 1)) = BitVec.ofNat 32 g.val from by
    show BitVec.ofNat 32 (0 * 64 + g.val) = _
    rw [Nat.zero_mul, Nat.zero_add]]

-- The sums after a block: what was there plus, per graph and feature, the block's rows of that graph.
theorem pay6_4_apply (v4 : Vec Ideal S1x7168 .i32) (v12 : Vec Ideal S7168x64 .bf16) (v14 : Vec Ideal S64x64 .f32) (g f : Fin 64) :
    k6_pay4 (F := Ideal) v4 v12 v14 (ix2 g f)
      = v14 (ix2 g f) + ∑ r : Fin 7168, hot g (v4 (ix2 (0 : Fin 1) r)) * v12 (ix2 r f) := by
  unfold k6_pay4
  simp only [shapeCast_self]
  rw [addf_apply, matmul_apply₂ dot_S64x7168_S7168x64_S64x64_1_0_0_1_n_n rfl rfl (fun _ _ => rfl) (fun i q => dot_S64x7168_S7168x64_S64x64_1_0_0_1_n_n.lhsIdx_val_of_single rfl i q)
    (fun i q => dot_S64x7168_S7168x64_S64x64_1_0_0_1_n_n.rhsIdx_val_of_single rfl i q) (fun _ _ => rfl)]
  exact congrArg (v14 (ix2 g f) + ·) (Finset.sum_congr rfl fun r _ => by rw [truncf_apply, pay6_3_apply])

-- The source index over graph `g` with row `k` put back is `(g, k)`.
theorem lift6 (g : Fin 64) (k : Fin 7168) : reduces_S64x7168_S64.lift (ix1 g) k = ix2 g k := by
  funext c; apply Fin.ext
  show reduces_S64x7168_S64.liftVal (ix1 g) k.val c = _
  unfold Shape.Reduces.liftVal
  match c with
  | ⟨0, _⟩ => rfl
  | ⟨1, _⟩ => rfl

-- The counts after a block: what was there plus, per graph, the number of the block's rows of that graph.
theorem pay6_5_apply (v4 : Vec Ideal S1x7168 .i32) (v20 : Vec Ideal S64x1 .f32) (g : Fin 64) :
    k6_pay5 (F := Ideal) v4 v20 (ix2 g (0 : Fin 1))
      = v20 (ix2 g (0 : Fin 1)) + ∑ r : Fin 7168, hot g (v4 (ix2 (0 : Fin 1) r)) := by
  unfold k6_pay5
  simp only [shapeCast_self]
  rw [addf_apply]
  refine congrArg (v20 (ix2 g (0 : Fin 1)) + ·) ?_
  rw [shapeCast_apply _ shapeCasts_S64_S64x1 (ix2 g (0 : Fin 1)) (ix1 g) (by
    rw [Shape.rowMajor_val_two, Shape.rowMajor_val_one]
    show g.val = g.val * 1 + 0
    omega)]
  refine (Ideal.multiReduction_add_single (k6_pay3 (F := Ideal) v4) 0x00000000#32 reduces_S64x7168_S64 (.inl rfl) rfl (ix1 g)).trans ?_
  show ∑ k : Fin 7168, k6_pay3 (F := Ideal) v4 (reduces_S64x7168_S64.lift (ix1 g) k) = _
  exact Finset.sum_congr rfl fun r _ => by rw [lift6, pay6_3_apply]

end Cert.KernelIdeal.Val
end
-- ==== Proof.Val.KReg6.lean ====
import proofs.«430582_j3058016715240_3_alg».proof.Proof.KI.Reg6
import proofs.«430582_j3058016715240_3_alg».proof.Proof.Val.KReg6Pay
import proofs.«430582_j3058016715240_3_alg».proof.Proof.Val.Spec
import Idealize.ShloMosaic.Lib.Pipeline.Value
import Idealize.ShloMosaic.Lib.ValueIdx
noncomputable section
open scoped BigOperators
namespace Cert.KernelIdeal.Val
open Cert.KernelIdeal Cert.KernelIdeal.Gen Cert.KernelIdeal.Hand
open Idealize.ShloMosaic Idealize.ShloMosaic.ValueIdx Cert.Spec
open Idealize.ShloMosaic.TcCoe Idealize.SL.Sem
open Idealize.ShloMosaic.Pipeline (Dat Cfg Window)

-- Block t's share of the sum of the rows labelled g at feature f, and of their number; zero past the last block.
def blkSumN (L : (Sh2 1 50176).Idx → BitVec 32) (H : (Sh2 50176 64).Idx → EReal) (g f : Fin 64) (t : ℕ) : EReal :=
  if h : t < 7 then ∑ r : Fin 7168, hot g (L (ix2 0 ⟨7168 * t + r.val, by omega⟩)) * H (ix2 ⟨7168 * t + r.val, by omega⟩ f) else 0
def blkCntN (L : (Sh2 1 50176).Idx → BitVec 32) (g : Fin 64) (t : ℕ) : EReal :=
  if h : t < 7 then ∑ r : Fin 7168, hot g (L (ix2 0 ⟨7168 * t + r.val, by omega⟩)) else 0

theorem sum_blkSumN (L : (Sh2 1 50176).Idx → BitVec 32) (H : (Sh2 50176 64).Idx → EReal) (g f : Fin 64) :
    ∑ t ∈ Finset.range 7, blkSumN L H g f t = poolSum L H g f := by
  rw [Finset.sum_range]
  exact Finset.sum_congr rfl fun t _ => dif_pos t.isLt

theorem sum_blkCntN (L : (Sh2 1 50176).Idx → BitVec 32) (g : Fin 64) :
    ∑ t ∈ Finset.range 7, blkCntN L g t = poolCnt L g := by
  rw [Finset.sum_range]
  exact Finset.sum_congr rfl fun t _ => dif_pos t.isLt

theorem idx_facts6 : ∀ t : Fin cfg6.N, win6_0.index t (0 : Fin 2) = 0 ∧ win6_0.index t (1 : Fin 2) = t.val
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

variable (V : (c : Dev nD) → (b : Ref sig .tc) → Buf (Elt Ideal) ((c : Thread nD τ).loc b))

theorem iblk6_0_apply (c : Dev nD) (t : Fin cfg6.N) (r : Fin 7168) (h : 7168 * t.val + r.val < 50176) :
    (iblk6 V c 0 t : Vec Ideal S1x7168 .i32) (ix2 (0 : Fin 1) r) = V c main_v77 (ix2 (0 : Fin 1) ⟨7168 * t.val + r.val, h⟩) := by
  obtain ⟨e0, e1, -⟩ := idx_facts6 t
  unfold iblk6
  rw [View.read_apply]
  show V c main_v77 _ = V c main_v77 _
  congr 1
  funext a; apply Fin.ext
  match a with
  | ⟨0, _⟩ => show win6_0.index t (0 : Fin 2) * 1 + 1 * 0 = 0; rw [e0]
  | ⟨1, _⟩ => show win6_0.index t (1 : Fin 2) * 7168 + 1 * r.val = 7168 * t.val + r.val; rw [e1]; omega

theorem iblk6_1_apply (c : Dev nD) (t : Fin cfg6.N) (r : Fin 7168) (f : Fin 64) (h : 7168 * t.val + r.val < 50176) :
    (iblk6 V c 1 t : Vec Ideal S7168x64 .bf16) (ix2 r f) = V c main_v75 (ix2 ⟨7168 * t.val + r.val, h⟩ f) := by
  obtain ⟨-, -, e0, e1, -⟩ := idx_facts6 t
  unfold iblk6
  rw [View.read_apply]
  show V c main_v75 _ = V c main_v75 _
  congr 1
  funext a; apply Fin.ext
  match a with
  | ⟨0, _⟩ => show win6_1.index t (0 : Fin 2) * 7168 + 1 * r.val = 7168 * t.val + r.val; rw [e0]; omega
  | ⟨1, _⟩ => show win6_1.index t (1 : Fin 2) * 64 + 1 * f.val = f.val; rw [e1]; omega

-- Each point adds its block's share to the running sum and count.
theorem acc6_closed (c : Dev nD) (g f : Fin 64) : ∀ (n : ℕ) (hn : n < cfg6.N),
    (acc6 V c n hn).1 (ix2 g f) = ∑ t ∈ Finset.range (n + 1), blkSumN (V c main_v77) (V c main_v75) g f t
    ∧ (acc6 V c n hn).2 (ix2 g (0 : Fin 1)) = ∑ t ∈ Finset.range (n + 1), blkCntN (V c main_v77) g t := by
  have hN : cfg6.N = 7 := N_6
  have step : ∀ (n : ℕ) (hn : n < cfg6.N) (X : Vec Ideal S64x64 .f32) (Y : Vec Ideal S64x1 .f32),
      k6_pay4 (F := Ideal) (iblk6 V c 0 ⟨n, hn⟩) (iblk6 V c 1 ⟨n, hn⟩) X (ix2 g f) = X (ix2 g f) + blkSumN (V c main_v77) (V c main_v75) g f n
      ∧ k6_pay5 (F := Ideal) (iblk6 V c 0 ⟨n, hn⟩) Y (ix2 g (0 : Fin 1)) = Y (ix2 g (0 : Fin 1)) + blkCntN (V c main_v77) g n := by
    intro n hn X Y
    have h7 : n < 7 := by omega
    rw [pay6_4_apply, pay6_5_apply]
    unfold blkSumN blkCntN; rw [dif_pos h7, dif_pos h7]
    refine ⟨congrArg (X (ix2 g f) + ·) (Finset.sum_congr rfl fun r _ => ?_), congrArg (Y (ix2 g (0 : Fin 1)) + ·) (Finset.sum_congr rfl fun r _ => ?_)⟩
    · rw [iblk6_0_apply V c ⟨n, hn⟩ r (by show 7168 * n + r.val < 50176; omega),
        iblk6_1_apply V c ⟨n, hn⟩ r f (by show 7168 * n + r.val < 50176; omega)]
    · rw [iblk6_0_apply V c ⟨n, hn⟩ r (by show 7168 * n + r.val < 50176; omega)]
  intro n
  induction n with
  | zero =>
    intro hn
    obtain ⟨e1, e2⟩ := step 0 hn (k6_pay1 (F := Ideal)) (k6_pay2 (F := Ideal))
    exact ⟨e1.trans (by rw [pay6_1_apply, zero_add, Finset.sum_range_one]), e2.trans (by rw [pay6_2_apply, zero_add, Finset.sum_range_one])⟩
  | succ n ih =>
    intro hn
    obtain ⟨e1, e2⟩ := step (n + 1) hn (acc6 V c n (Nat.lt_of_succ_lt hn)).1 (acc6 V c n (Nat.lt_of_succ_lt hn)).2
    obtain ⟨i1, i2⟩ := ih (Nat.lt_of_succ_lt hn)
    exact ⟨e1.trans (by rw [i1, ← Finset.sum_range_succ]), e2.trans (by rw [i2, ← Finset.sum_range_succ])⟩

theorem flushed6_eq (c : Dev nD) (t : Fin cfg6.N) (hf : (cfg6.win 2).flush t = true) :
    (dat6 V c).flushed 2 t = ((cfg6.win 2).blk t).view.read (Elt Ideal) (pool (V c main_v77) (V c main_v75)) := by
  have ht : t.val % 7 = 6 := (flush6_2 t).mp hf
  have hN : cfg6.N = 7 := N_6
  obtain ⟨n, hn⟩ := t
  obtain rfl : n = 6 := by have ht' : n % 7 = 6 := ht; omega
  show (cfg6.win 2).cut (grid6.coords ⟨6, hn⟩) ((dat6 V c).after 2 ⟨6, hn⟩) = _
  rw [after6_2]
  obtain ⟨-, -, -, -, e0, e1⟩ := idx_facts6 ⟨6, hn⟩
  funext j
  show k6_pay6 (acc6 V c 6 hn).1 (acc6 V c 6 hn).2 j = pool (V c main_v77) (V c main_v75) (((cfg6.win 2).blk ⟨6, hn⟩).view.emb j)
  obtain ⟨g, f, rfl⟩ : ∃ (g f : Fin 64), j = ix2 g f := ⟨j 0, j 1, eq_ix2 j⟩
  obtain ⟨hA, hC⟩ := acc6_closed V c g f 6 hn
  have he : ((cfg6.win 2).blk ⟨6, hn⟩).view.emb (ix2 g f) = ix2 g f := by
    funext a; apply Fin.ext
    match a with
    | ⟨0, _⟩ => show win6_2.index ⟨6, hn⟩ (0 : Fin 2) * 64 + 1 * g.val = g.val; rw [e0]; omega
    | ⟨1, _⟩ => show win6_2.index ⟨6, hn⟩ (1 : Fin 2) * 64 + 1 * f.val = f.val; rw [e1]; omega
  rw [pay6_apply, hA, hC, he, sum_blkSumN, sum_blkCntN]
  rfl

-- The block of the last point is the whole array.
theorem cover6 (i : S64x64.Idx) : ∃ t : Fin cfg6.N, (cfg6.win 2).flush t = true ∧ i ∈ ((cfg6.win 2).blk t).view.set := by
  refine ⟨t6_6, (flush6_2 t6_6).mpr (by show 6 % 7 = 6; rfl), ?_⟩
  show i ∈ ((View.whole main_v78).slice (win6_2.rect t6_6)).set
  rw [View.set_slice_whole, Rect.mem_set_unit]
  obtain ⟨-, -, -, -, e0, e1⟩ := idx_facts6 t6_6
  intro a
  match a with
  | ⟨0, _⟩ => show win6_2.index t6_6 (0 : Fin 2) * 64 ≤ (i 0).val ∧ (i 0).val < win6_2.index t6_6 (0 : Fin 2) * 64 + 64; have h : (i 0).val < 64 := (i 0).isLt; rw [e0]; omega
  | ⟨1, _⟩ => show win6_2.index t6_6 (1 : Fin 2) * 64 ≤ (i 1).val ∧ (i 1).val < win6_2.index t6_6 (1 : Fin 2) * 64 + 64; have h : (i 1).val < 64 := (i 1).isLt; rw [e1]; omega

theorem final6 (c : Dev nD) : (dat6 V c).arrAt 2 cfg6.N = pool (V c main_v77) (V c main_v75) :=
  (dat6 V c).arrAt_eq_of_cover 2 (pool (V c main_v77) (V c main_v75)) (fun t hf => flushed6_eq V c t hf) cover6

end Cert.KernelIdeal.Val
end
-- ==== Proof.Val.KReg7.lean ====
import proofs.«430582_j3058016715240_3_alg».proof.Proof.KI.Reg7
import proofs.«430582_j3058016715240_3_alg».proof.Proof.Val.KRegLib
noncomputable section
open scoped BigOperators
namespace Cert.KernelIdeal.Val
open Cert.KernelIdeal Cert.KernelIdeal.Gen Cert.KernelIdeal.Hand Cert.Spec
open Idealize.ShloMosaic Idealize.ShloMosaic.TcCoe Idealize.ShloMosaic.ValueIdx Idealize.SL.Sem

-- Blocks that read, along `j`'s row and column, what `P`, `W`, `B` hold along `i`'s give the classifier's entry at `i`.
theorem cls_point (x0 : Vec Ideal S64x64 .f32) (x1 : Vec Ideal S64x16 .f32) (x2 : Vec Ideal S1x16 .f32)
    (P : (Sh2 64 64).Idx → EReal) (W : (Sh2 64 16).Idx → EReal) (B : (Sh2 1 16).Idx → EReal)
    (j : S64x16.Idx) (i : (Sh2 64 16).Idx) (h0 : ∀ k, x0 (ix2 (j 0) k) = P (ix2 (i 0) k))
    (h1 : ∀ k, x1 (ix2 k (j 1)) = W (ix2 k (i 1))) (h2 : x2 (ix2 0 (j 1)) = B (ix2 0 (i 1))) :
    k7_pay1 x0 x1 x2 j = cls P W B i := by
  obtain ⟨p, q, rfl⟩ : ∃ (p : Fin 64) (q : Fin 16), j = ix2 p q := ⟨j 0, j 1, eq_ix2 j⟩
  unfold k7_pay1
  rw [addf_apply, shapeCast_self, shapeCast_self, broadcastTo_1b_ab_apply,
    matmul_apply₂ dot_S64x64_S64x16_S64x16_1_0_0_1_n_n rfl rfl (fun _ _ => rfl) (fun i q => dot_S64x64_S64x16_S64x16_1_0_0_1_n_n.lhsIdx_val_of_single rfl i q)
      (fun i q => dot_S64x64_S64x16_S64x16_1_0_0_1_n_n.rhsIdx_val_of_single rfl i q) (fun _ _ => rfl)]
  show (∑ k : Fin 64, x0 (ix2 p k) * x1 (ix2 k q)) + x2 (ix2 0 q) = _
  rw [show x2 (ix2 0 q) = _ from h2]
  exact congrArg (· + B (ix2 0 (i 1))) (Finset.sum_congr rfl fun k _ => by
    rw [show x0 (ix2 p k) = _ from h0 k, show x1 (ix2 k q) = _ from h1 k])

variable (V : (c : Dev nD) → (b : Ref sig .tc) → Buf (Elt Ideal) ((c : Thread nD τ).loc b))

-- Every window's block starts at its array's origin at the grid's one point.
theorem off7 : ∀ t : Fin cfg7.N,
    (∀ a : Fin 2, win7_0.index t a * win7_0.size a = 0) ∧ (∀ a : Fin 2, win7_1.index t a * win7_1.size a = 0)
    ∧ (∀ a : Fin 2, win7_2.index t a * win7_2.size a = 0) ∧ (∀ a : Fin 2, win7_3.index t a * win7_3.size a = 0) :=
  (by decide +kernel : ∀ t : Fin grid7.N, _)

theorem final7 (c : Dev nD) : (dat7 V c).arrAt 3 cfg7.N = cls (V c main_v78) (V c main_arg9) (V c main_v20) := by
  refine (dat7 V c).arrAt_eq_of_cover 3 _ (fun t _ => ?_) fun i => ?_
  · obtain ⟨o0, o1, o2, o3⟩ := off7 t
    show (cfg7.win 3).cut (grid7.coords t) ((dat7 V c).after 3 t) = _
    rw [after7_3]
    unfold out7_3
    rw [View.canon_unit_zero hz, View.ld_unit_zero hz, View.ld_unit_zero hz, View.ld_unit_zero hz]
    funext j
    have hk := emb_val win7_3 t j _ o3
    exact cls_point _ _ _ _ _ _ j _ (fun k => blk_read win7_0 t _ _ _ _ o0 (Fin.forall_fin_two.mpr ⟨hk 0, (Nat.zero_add _).symm⟩))
      (fun k => blk_read win7_1 t _ _ _ _ o1 (Fin.forall_fin_two.mpr ⟨(Nat.zero_add _).symm, hk 1⟩))
      (blk_read win7_2 t _ _ _ _ o2 (Fin.forall_fin_two.mpr ⟨rfl, hk 1⟩))
  · exact ⟨t7_0, flush7_3 t7_0, mem_blk win7_3 t7_0 i fun a => by
      rw [(off7 t7_0).2.2.2 a, Nat.zero_add]
      exact ⟨Nat.zero_le _, (i a).isLt⟩⟩

end Cert.KernelIdeal.Val
end
-- ==== Proof.Val.KChain.lean ====
import proofs.«430582_j3058016715240_3_alg».proof.Proof.Val.KChainA
import proofs.«430582_j3058016715240_3_alg».proof.Proof.Val.KReg6
import proofs.«430582_j3058016715240_3_alg».proof.Proof.Val.KReg7

noncomputable section

namespace Cert.KernelIdeal.Val

open Cert.KernelIdeal Cert.KernelIdeal.Gen
open Idealize.ShloMosaic Idealize.ShloMosaic.TcCoe Idealize.ShloMosaic.ValueIdx Cert.Spec
open Idealize.SL.Sem

variable (m : (ℓ : Loc nD τ sig) → Buf (Elt Ideal) ℓ) (ρ : Dev nD → PrngReg) (c : Dev nD)

theorem out_eq : Hand.W17 (F := Ideal) m ρ c (Proc.devRef .tc main_v79)
    = kout (argOf m c main_arg0) (argOf m c main_arg1) (argOf m c main_arg2) (argOf m c main_arg3) (argOf m c main_arg4)
        (argOf m c main_arg5) (argOf m c main_arg6) (argOf m c main_arg7) (argOf m c main_arg8) (argOf m c main_arg9)
        (argOf m c main_arg10) :=
  (Hand.W17_arr m ρ c 3).trans <| (final7 (Hand.V16 m ρ) c).trans <|
    (congr (congrArg₂ cls
      ((Hand.W16_arr m ρ c 2).trans <| (final6 (Hand.V15 m ρ) c).trans <| congrArg₂ pool
        ((hs6_v77 _).trans (congrArg padL (keep10 (w1_arg main_arg2))))
        ((hs6_v75 _).trans (congrArg padH w10_v74)))
      (keep16 (w1_arg main_arg9))) (keep16 (hs0_v20 _))).trans rfl

end Cert.KernelIdeal.Val

end
-- ==== Proof.Ref.Spec.lean ====
import proofs.«430582_j3058016715240_3_alg».proof.Proof.Gen.ReferenceIdeal.Run
import Idealize.ShloMosaic.PureOps.Ideal

noncomputable section

namespace Cert.ReferenceIdeal.RefVal

open Cert.ReferenceIdeal Cert.ReferenceIdeal.Gen Cert.ReferenceIdeal.Value Idealize.ShloMosaic Idealize.SL.Sem

def srcOf (ei : IVec S2x1600000 32) : IVec S1600000 32 :=
  shapeCast _ (extractStridedSlice S1x1600000 ![0, 0] ei slices_S2x1600000_S1x1600000_0_0) shapeCasts_S1x1600000_S1600000

def dstOf (ei : IVec S2x1600000 32) : IVec S1600000 32 :=
  shapeCast _ (extractStridedSlice S1x1600000 ![1, 0] ei slices_S2x1600000_S1x1600000_1_0) shapeCasts_S1x1600000_S1600000

def nrm (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

def bI (v : IVec S1600000 32) : IVec S1600000x1 32 :=
  broadcastInDim S1600000x1 ![0] bcast_S1600000_S1600000x1_0 v

-- Each node's (1 + in-degree)^(-1/2), the in-degree counted at the wrapped targets.
def dinv (ei : IVec S2x1600000 32) : FVec Ideal S50000 .f32 :=
  Host.rsqrt (addf (Host.scatterAdd scatter_S50000_S1600000x1_S1600000_n_0_0_1
      (broadcastInDim S50000 ![] bcast_S_S50000 (constant S_ .f32 0x00000000#32))
      (bI (nrm (dstOf ei)))
      (broadcastInDim S1600000 ![] bcast_S_S1600000 (constant S_ .f32 0x3F800000#32)))
    (broadcastInDim S50000 ![] bcast_S_S50000 (constant S_ .f32 0x3F800000#32)))

-- One convolution after its product `h`: `h[src] * (dinv[src] * dinv[dst])` summed into `dst`, plus `h * dinv * dinv`, plus the bias.
def layer (h : FVec Ideal S50000x64 .f32) (ei : IVec S2x1600000 32) (b : FVec Ideal S64 .f32) :
    FVec Ideal S50000x64 .f32 :=
  addf (addf (Host.scatterAdd scatter_S50000x64_S1600000x1_S1600000x64_1_0_0_1
        (broadcastInDim S50000x64 ![] bcast_S_S50000x64 (constant S_ .f32 0x00000000#32))
        (broadcastInDim S1600000x1 ![0] bcast_S1600000_S1600000x1_0 (dstOf ei))
        (mulf (Host.gather gather_S50000x64_S1600000x1_S1600000x64_1_0_n_n_0_1_164 h (bI (nrm (srcOf ei))))
          (broadcastInDim S1600000x64 ![0, 1] bcast_S1600000x1_S1600000x64_0_1
            (broadcastInDim S1600000x1 ![0] bcast_S1600000_S1600000x1_0
              (mulf (Host.gather gather_S50000_S1600000x1_S1600000_n_0_n_n_0_1_1 (dinv ei) (bI (nrm (srcOf ei))))
                (Host.gather gather_S50000_S1600000x1_S1600000_n_0_n_n_0_1_1 (dinv ei) (bI (nrm (dstOf ei)))))))))
      (mulf h (broadcastInDim S50000x64 ![0, 1] bcast_S50000x1_S50000x64_0_1
        (broadcastInDim S50000x1 ![0] bcast_S50000_S50000x1_0 (mulf (dinv ei) (dinv ei))))))
    (broadcastInDim S50000x64 ![0, 1] bcast_S1x64_S50000x64_0_1 (broadcastInDim S1x64 ![1] bcast_S64_S1x64_1 b))

def relu (v : FVec Ideal S50000x64 .f32) : FVec Ideal S50000x64 .f32 :=
  maximumf v (broadcastInDim S50000x64 ![] bcast_S_S50000x64 (constant S_ .f32 0x00000000#32))

-- Three convolutions (the positive part after the first two), the mean over each graph, the classifier.
def out (x : FVec Ideal S50000x128 .f32) (ei : IVec S2x1600000 32) (batch : IVec S50000 32)
    (W0 : FVec Ideal S128x64 .f32) (b0 : FVec Ideal S64 .f32) (W1 : FVec Ideal S64x64 .f32) (b1 : FVec Ideal S64 .f32)
    (W2 : FVec Ideal S64x64 .f32) (b2 : FVec Ideal S64 .f32) (Wc : FVec Ideal S64x16 .f32) (bc : FVec Ideal S16 .f32) :
    FVec Ideal S64x16 .f32 :=
  addf (Host.dotGeneral dot_S64x64_S64x16_S64x16_1_0_0_1_n_n none
      (Host.divf
        (Host.scatterAdd scatter_S64x64_S50000x1_S50000x64_1_0_0_1
          (broadcastInDim S64x64 ![] bcast_S_S64x64 (constant S_ .f32 0x00000000#32))
          (broadcastInDim S50000x1 ![0] bcast_S50000_S50000x1_0 batch)
          (layer (Host.dotGeneral dot_S50000x64_S64x64_S50000x64_1_0_0_1_n_n none
              (relu (layer (Host.dotGeneral dot_S50000x64_S64x64_S50000x64_1_0_0_1_n_n none
                  (relu (layer (Host.dotGeneral dot_S50000x128_S128x64_S50000x64_1_0_0_1_n_n none x W0) ei b0))
                  W1) ei b1))
              W2) ei b2))
        (broadcastInDim S64x64 ![0, 1] bcast_S64x1_S64x64_0_1
          (broadcastInDim S64x1 ![0] bcast_S64_S64x1_0
            (maximumf (Host.scatterAdd scatter_S64_S50000x1_S50000_n_0_0_1
                (broadcastInDim S64 ![] bcast_S_S64 (constant S_ .f32 0x00000000#32))
                (broadcastInDim S50000x1 ![0] bcast_S50000_S50000x1_0 batch)
                (broadcastInDim S50000 ![] bcast_S_S50000 (constant S_ .f32 0x3F800000#32)))
              (broadcastInDim S64 ![] bcast_S_S64 (constant S_ .f32 0x3F800000#32))))))
      Wc)
    (broadcastInDim S64x16 ![0, 1] bcast_S1x16_S64x16_0_1 (broadcastInDim S1x16 ![1] bcast_S16_S1x16_1 bc))

-- The reference's composed term unfolds to `out` of the eleven arguments.
theorem res_eq (m : (ℓ : Loc nD τ sig) → Buf (Elt Ideal) ℓ) (c : Dev nD) :
    res_main_v144 (F := Ideal) m c =
      out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) := rfl

end Cert.ReferenceIdeal.RefVal

end
-- ==== Proof.Val.Algebra.lean ====
import Idealize.ShloMosaic.PureOps.Ideal

namespace Cert.Alg

open Idealize.ShloMosaic
open scoped BigOperators

def NNR (d : EReal) : Prop := ∃ r : ℝ, 0 ≤ r ∧ d = (r : EReal)

-- A non-negative real factor distributes over a sum of extended reals (an infinite or negative one need not).
theorem add_mul_nnr {d : EReal} (hd : NNR d) (a b : EReal) : (a + b) * d = a * d + b * d := by
  obtain ⟨r, hr, rfl⟩ := hd
  exact EReal.right_distrib_of_nonneg_of_ne_top (EReal.coe_nonneg.mpr hr) (EReal.coe_ne_top r) a b

theorem sum_mul_nnr {ι} (S : Finset ι) (a : ι → EReal) {d : EReal} (hd : NNR d) :
    (∑ j ∈ S, a j) * d = ∑ j ∈ S, a j * d := by
  classical
  induction S using Finset.induction_on with
  | empty => simp
  | insert x s hx ih => rw [Finset.sum_insert hx, Finset.sum_insert hx, add_mul_nnr hd, ih]

-- Rows scaled before they are summed and the sum scaled once, against every summand scaled twice.
theorem agg_eq {ι} (S : Finset ι) (L R hG dS : ι → EReal) (h D b : EReal) (hD : NNR D)
    (hL : ∀ j ∈ S, L j = hG j * dS j) (hR : ∀ j ∈ S, R j = hG j * (dS j * D)) :
    ((0 + ∑ j ∈ S, L j) + h * D) * D + b = ((0 + ∑ j ∈ S, R j) + h * (D * D)) + b := by
  rw [Finset.sum_congr rfl hL, Finset.sum_congr rfl hR, add_mul_nnr hD, zero_add, zero_add, sum_mul_nnr S _ hD]
  simp only [mul_assoc]

theorem sum_ones {ι} (S : Finset ι) : (∑ _j ∈ S, (1 : EReal)) = ((S.card : ℝ) : EReal) := by
  rw [Finset.sum_const, nsmul_one, EReal.coe_natCast]

-- A count plus one is at least one, so its inverse square root is a positive real.
theorem rsqrt_count_nnr {ι} (S : Finset ι) :
    NNR (Ideal.rsqrt ((0 + ∑ _j ∈ S, (1 : EReal)) + 1)) := by
  have hpos : (0 : ℝ) < (S.card : ℝ) + 1 := by positivity
  have hval : ((0 + ∑ _j ∈ S, (1 : EReal)) + 1) = (((S.card : ℝ) + 1 : ℝ) : EReal) := by
    rw [zero_add, sum_ones, EReal.coe_add, EReal.coe_one]
  rw [hval, Ideal.rsqrt_coe, if_neg (not_lt.mpr hpos.le), if_neg hpos.ne']
  exact ⟨_, inv_nonneg.mpr (Real.sqrt_nonneg _), rfl⟩

theorem hot_mul (p : Prop) [Decidable p] (x : EReal) :
    (if p then (1 : EReal) else 0) * x = if p then x else 0 := by
  rw [ite_mul, one_mul, zero_mul]

-- 50176 = 7 · 7168 points read blockwise, of which the last 176 contribute zero.
theorem sum_blocks (f : Fin 50176 → EReal) (hz : ∀ n : Fin 50176, 50000 ≤ n.val → f n = 0) :
    (∑ t : Fin 7, ∑ r : Fin 7168, f ⟨7168 * t.val + r.val, by omega⟩)
      = ∑ n : Fin 50000, f ⟨n.val, by omega⟩ := by
  have h := Fin.sum_univ_add (a := 50000) (b := 176) f
  rw [(Finset.sum_eq_zero fun i _ => hz _ (Nat.le_add_right _ _) : ∑ i : Fin 176, f (Fin.natAdd 50000 i) = 0), add_zero] at h
  rw [← Fintype.sum_prod_type' (fun (t : Fin 7) (r : Fin 7168) => f ⟨7168 * t.val + r.val, by omega⟩)]
  refine Eq.trans (Fintype.sum_equiv (finProdFinEquiv (m := 7) (n := 7168)) _ f ?_) h
  rintro ⟨t, r⟩
  exact congrArg f (Fin.ext (by simp only [finProdFinEquiv_apply_val]; omega))

end Cert.Alg
-- ==== Proof.Val.BridgeBase.lean ====
import proofs.«430582_j3058016715240_3_alg».proof.ReferenceIdeal
import proofs.«430582_j3058016715240_3_alg».proof.Proof.Val.Spec
import proofs.«430582_j3058016715240_3_alg».proof.Proof.Val.Algebra
import Idealize.ShloMosaic.Lib.StackMember

noncomputable section

open scoped BigOperators

namespace Cert.Bridge

open Idealize.ShloMosaic Idealize.ShloMosaic.ValueIdx

-- A plain matrix product at an index is the sum over the contracted coordinate.
theorem dot_apply {m k n : Nat} {φ₁ φ₂ : FTy} (X : FVec Ideal ⟨2, ![m, k]⟩ φ₁) (W : FVec Ideal ⟨2, ![k, n]⟩ φ₂)
    (i : (⟨2, ![m, n]⟩ : Shape).Idx) :
    Host.dotGeneral (DotDims.plain m k n) none X W i = ∑ c : Fin k, X (ix2 (i 0) c) * W (ix2 c (i 1)) :=
  (congrArg (Host.dotGeneral (DotDims.plain m k n) none X W) (eq_ix2 i)).trans
    (StackMember.dotGeneral_plain_apply none X W (i 0) (i 1))

end Cert.Bridge

end
-- ==== Proof.Val.IdxLemmas.lean ====
import proofs.«430582_j3058016715240_3_alg».proof.ReferenceIdeal
import Idealize.ShloMosaic.Lib.ValueIdxRank1
import Idealize.ShloMosaic.Lib.Pipeline.Value
import Idealize.ShloMosaic.Lib.StableHlo.Predicate

noncomputable section

namespace Cert.Idx

open Cert.ReferenceIdeal Idealize.ShloMosaic Idealize.ShloMosaic.ValueIdx Idealize.ShloMosaic.StableHlo.Predicate

variable [Facts₀]

theorem ofFin_eq_ix1 {n : Nat} (p : Fin n) : (Shape.Idx.ofFin p : (⟨1, ![n]⟩ : Shape).Idx) = ix1 p := by
  funext a; match a with | ⟨0, _⟩ => rfl

theorem ixP_eq {n : Nat} (p : Fin n) : ixP p = ix2 p 0 := by
  funext b; match b with | ⟨0, _⟩ => rfl | ⟨1, _⟩ => rfl

-- A vector as a one-column matrix reads the vector.
theorem col_apply {α : Type} {n : Nat} (h : (⟨1, ![n]⟩ : Shape).BroadcastsInDim ⟨2, ![n, 1]⟩ ![0])
    (v : (⟨1, ![n]⟩ : Shape).Idx → α) (p : Fin n) : broadcastInDim ⟨2, ![n, 1]⟩ ![0] h v (ix2 p 0) = v (ix1 p) :=
  (congrArg _ (ixP_eq p).symm).trans ((bcast_col1 h v p).trans (congrArg v (ofFin_eq_ix1 p)))

-- A vector laid along the rows of a rectangle reads the vector at the row.
theorem bc_rows {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (j : (⟨2, ![n, m]⟩ : Shape).Idx) :
    broadcastInDim ⟨2, ![n, m]⟩ ![0, 1] h₂ (broadcastInDim ⟨2, ![n, 1]⟩ ![0] h₁ v) j = v (ix1 (j 0)) :=
  (congrArg _ (ij_eta j).symm).trans ((bcast_rows h₁ h₂ v (j 0) (j 1)).trans (congrArg v (ofFin_eq_ix1 _)))

-- A vector laid along the columns of a rectangle reads the vector at the column.
theorem bc_cols {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (j : (⟨2, ![n, m]⟩ : Shape).Idx) :
    broadcastInDim ⟨2, ![n, m]⟩ ![0, 1] h₂ (broadcastInDim ⟨2, ![1, m]⟩ ![1] h₁ v) j = v (ix1 (j 1)) :=
  (congrArg _ (ij_eta j).symm).trans ((bcast_cols (n := n) h₁ h₂ v (j 0) (j 1)).trans (congrArg v (ofFin_eq_ix1 _)))

-- The table row an edge reads: its start index, read signed and clamped into the table.
def rowOf (idx : IVec S1600000x1 32) (e : Fin 1600000) : Fin 50000 :=
  ⟨min (idx (ix2 e 0)).toInt.toNat 49999, by omega⟩

theorem gather2_apply {α : Type} (x : S50000x64.Idx → α) (idx : IVec S1600000x1 32) (j : S1600000x64.Idx) :
    Host.gather gather_S50000x64_S1600000x1_S1600000x64_1_0_n_n_0_1_164 x idx j = x (ix2 (rowOf idx (j 0)) (j 1)) := by
  have hs0 : gather_S50000x64_S1600000x1_S1600000x64_1_0_n_n_0_1_164.start j idx 0 = min (idx (ix2 (j 0) 0)).toInt.toNat 49999 := by
    unfold GatherDims.start
    rw [dif_pos (show (0 : Fin 2) ∈ gather_S50000x64_S1600000x1_S1600000x64_1_0_n_n_0_1_164.startIndexMap from List.mem_singleton.mpr rfl)]
    exact congrArg (fun k => min (idx k).toInt.toNat 49999) (funext fun b => Fin.ext (by
      match b with
      | ⟨0, _⟩ => rfl
      | ⟨1, _⟩ => rfl))
  have hs1 : gather_S50000x64_S1600000x1_S1600000x64_1_0_n_n_0_1_164.start j idx 1 = 0 := dif_neg (show (1 : Fin 2) ∉ ([0] : List (Fin 2)) by decide)
  refine congrArg x (funext fun a => Fin.ext ?_)
  match a with
  | ⟨0, _⟩ => exact congrArg (· + 0 + 0) hs0
  | ⟨1, _⟩ => exact (congrArg (· + 0 + (j 1).val) hs1).trans (Nat.zero_add _)

theorem gather1_apply {α : Type} (x : S50000.Idx → α) (idx : IVec S1600000x1 32) (j : S1600000.Idx) :
    Host.gather gather_S50000_S1600000x1_S1600000_n_0_n_n_0_1_1 x idx j = x (ix1 (rowOf idx (j 0))) := by
  refine (congrArg (Host.gather gather_S50000_S1600000x1_S1600000_n_0_n_n_0_1_1 x idx)
    ((eq_ix1 j).trans (ofFin_eq_ix1 _).symm)).trans
    ((gather_take _ rfl rfl rfl rfl x idx (j 0) (by decide)).trans (congrArg x ?_))
  exact (ofFin_eq_ix1 _).trans (congrArg ix1 (Fin.ext
    (congrArg (fun k => min (idx k).toInt.toNat 49999) (ixP_eq (j 0)))))

-- An update lands on `i` exactly when its start plus its window coordinate is `i` on every axis.
theorem resultIdx?_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · next hh =>
      have e : (d.start j idx a + (d.window j a : ℤ)).toNat = (i a).val :=
        congrArg Fin.val (congrFun (Option.some.inj h) a)
      have h0 := (hh a).1
      omega
    · exact absurd h (by simp)
  · intro h
    rw [dif_pos fun a => by rw [h a]; exact ⟨Int.natCast_nonneg _, Int.ofNat_lt.mpr (i a).isLt⟩]
    exact congrArg some (funext fun a => Fin.ext (by
      show (d.start j idx a + (d.window j a : ℤ)).toNat = _
      rw [h a, Int.toNat_natCast]))

abbrev rowScatter (N n m : Nat) (wf : ScatterDims.WF ⟨2, ![N, m]⟩ ⟨2, ![n, 1]⟩ ⟨2, ![n, m]⟩ [1] [0] [0] 1) :
    ScatterDims ⟨2, ![N, m]⟩ ⟨2, ![n, 1]⟩ ⟨2, ![n, m]⟩ where
  updateWindowDims := [1]
  insertedWindowDims := [0]
  scatterDimsToOperandDims := [0]
  indexVectorDim := 1
  wf := wf

-- A row update lands on `(r, f')` exactly when its start index, read signed and not clamped, is `r`, and its column is `f'`.
theorem rowScatter_iff {N n m w : Nat} (wf : ScatterDims.WF ⟨2, ![N, m]⟩ ⟨2, ![n, 1]⟩ ⟨2, ![n, m]⟩ [1] [0] [0] 1)
    (idx : IVec ⟨2, ![n, 1]⟩ w) (j : (⟨2, ![n, m]⟩ : Shape).Idx) (i : (⟨2, ![N, m]⟩ : Shape).Idx) :
    (rowScatter N n m wf).resultIdx? j idx = some i
      ↔ ((idx (ix2 (j 0) 0)).toInt = ((i 0).val : ℤ) ∧ (j 1).val = (i 1).val) := by
  have hs0 : (rowScatter N n m wf).start j idx 0 = (idx (ix2 (j 0) 0)).toInt := by
    unfold ScatterDims.start
    rw [dif_pos (show (0 : Fin 2) ∈ (rowScatter N n m wf).scatterDimsToOperandDims from List.mem_singleton.mpr rfl)]
    exact congrArg (fun k => (idx k).toInt) (funext fun b => Fin.ext (by
      match b with
      | ⟨0, _⟩ => rfl
      | ⟨1, _⟩ => rfl))
  have hs1 : (rowScatter N n m wf).start j idx 1 = 0 :=
    dif_neg (show (1 : Fin 2) ∉ ([0] : List (Fin 2)) by decide)
  have hw0 : (rowScatter N n m wf).window j 0 = 0 := rfl
  have hw1 : (rowScatter N n m wf).window j 1 = (j 1).val := rfl
  rw [resultIdx?_iff, Fin.forall_fin_two, hs0, hs1, hw0, hw1]
  omega

theorem scat2_iff (idx : IVec S1600000x1 32) (j : S1600000x64.Idx) (i : S50000x64.Idx) :
    scatter_S50000x64_S1600000x1_S1600000x64_1_0_0_1.resultIdx? j idx = some i
      ↔ ((idx (ix2 (j 0) 0)).toInt = ((i 0).val : ℤ) ∧ (j 1).val = (i 1).val) :=
  rowScatter_iff (N := 50000) (n := 1600000) (m := 64) Facts₀.scatter_S50000x64_S1600000x1_S1600000x64_1_0_0_1_wf idx j i

theorem scatP2_iff (idx : IVec S50000x1 32) (j : S50000x64.Idx) (i : S64x64.Idx) :
    scatter_S64x64_S50000x1_S50000x64_1_0_0_1.resultIdx? j idx = some i
      ↔ ((idx (ix2 (j 0) 0)).toInt = ((i 0).val : ℤ) ∧ (j 1).val = (i 1).val) :=
  rowScatter_iff (N := 64) (n := 50000) (m := 64) Facts₀.scatter_S64x64_S50000x1_S50000x64_1_0_0_1_wf idx j i

-- An entry update lands on `r` exactly when its start index, read signed and not clamped, is `r`.
theorem scatP1_iff (idx : IVec S50000x1 32) (j : S50000.Idx) (i : S64.Idx) :
    scatter_S64_S50000x1_S50000_n_0_0_1.resultIdx? j idx = some i ↔ (idx (ix2 (j 0) 0)).toInt = ((i 0).val : ℤ) := by
  have hs0 : scatter_S64_S50000x1_S50000_n_0_0_1.start j idx 0 = (idx (ix2 (j 0) 0)).toInt := by
    unfold ScatterDims.start
    rw [dif_pos (show (0 : Fin 1) ∈ scatter_S64_S50000x1_S50000_n_0_0_1.scatterDimsToOperandDims from List.mem_singleton.mpr rfl)]
    exact congrArg (fun k => (idx k).toInt) (funext fun b => Fin.ext (by
      match b with
      | ⟨0, _⟩ => rfl
      | ⟨1, _⟩ => rfl))
  have hw0 : scatter_S64_S50000x1_S50000_n_0_0_1.window j 0 = 0 := rfl
  rw [resultIdx?_iff, Fin.forall_fin_one, hs0, hw0]
  omega

-- The wrap of a negative index (add 50000 where the word reads negative) keeps words that read non-negative.
theorem wrap_of_nonneg (v : IVec S1600000 32) (h : ∀ e, 0 ≤ (v e).toInt) :
    select (cmpi .slt v (broadcastInDim S1600000 ![] Facts₀.bcast_S_S1600000 (constantI S_ 32 0#32)))
      (addi v (broadcastInDim S1600000 ![] Facts₀.bcast_S_S1600000 (constantI S_ 32 50000#32))) v = v := by
  funext e
  show Scalar.select (Scalar.cmpi .slt (v e) 0#32) (v e + 50000#32) (v e) = v e
  unfold Scalar.select
  rw [if_neg]
  intro hc
  have hlt : (v e).slt 0#32 = true := (ofBool_eq_one_iff _).mp hc
  have : (v e).toInt < (0#32 : BitVec 32).toInt := by simpa [BitVec.slt] using hlt
  have := h e
  simp at *
  omega

end Cert.Idx
-- ==== Proof.Val.PoolBridge.lean ====
import proofs.«430582_j3058016715240_3_alg».proof.Proof.Val.KSpec
import proofs.«430582_j3058016715240_3_alg».proof.Proof.Val.Algebra
import proofs.«430582_j3058016715240_3_alg».proof.Proof.Val.IdxLemmas
import Idealize.ShloMosaic.Lib.ValueLayout
import Idealize.ShloMosaic.Lib.KernelVsHost
import Idealize.ShloMosaic.Lib.IdealHost

noncomputable section

open scoped BigOperators

namespace Cert.PoolBridge

open Idealize.ShloMosaic Idealize.ShloMosaic.ValueIdx Cert.Spec Cert.KernelIdeal.Val

-- The padded labels: the label below row 50000, the word of all ones from there on.
theorem padL_low (batch : IVec Cert.KernelIdeal.S50000 32) (n : Fin 50000) :
    padL batch (ix2 0 ⟨n.val, by omega⟩) = batch (ix1 n) :=
  (shapeCast_a_1a_apply _ _ 0 _).trans (pad_apply_of_inside _ _ _ _ _ _ _ (ix1 _) (ix1 n) fun a => by
    match a with
    | ⟨0, _⟩ => show n.val = 0 + n.val * (0 + 1); omega)

theorem padL_high (batch : IVec Cert.KernelIdeal.S50000 32) (n : Fin 50176) (h : 50000 ≤ n.val) :
    padL batch (ix2 0 n) = 4294967295#32 :=
  (shapeCast_a_1a_apply _ _ 0 n).trans (pad_apply_of_not_inside _ _ _ _ _ _ _ (ix1 n) 0 fun hin => by
    have h3 : (n.val - 0) / (0 + 1) < 50000 := hin.2.2
    omega)

-- The padded rows: the row below row 50000, zero from there on.
theorem padH_low (C : FVec Ideal Cert.KernelIdeal.S50000x64 .bf16) (n : Fin 50000) (f : Fin 64) :
    padH C (ix2 ⟨n.val, by omega⟩ f) = C (ix2 n f) :=
  pad_apply_of_inside _ _ _ _ _ _ _ (ix2 _ f) (ix2 n f) fun a => by
    match a with
    | ⟨0, _⟩ => show n.val = 0 + n.val * (0 + 1); omega
    | ⟨1, _⟩ => show f.val = 0 + f.val * (0 + 1); omega

theorem padH_high (C : FVec Ideal Cert.KernelIdeal.S50000x64 .bf16) (n : Fin 50176) (f : Fin 64)
    (h : 50000 ≤ n.val) : padH C (ix2 n f) = 0 := by
  refine (pad_apply_of_not_inside _ _ _ _ _ _ _ (ix2 n f) 0 fun hin => by
    have h3 : (n.val - 0) / (0 + 1) < 50000 := hin.2.2
    omega).trans ?_
  show (((0#32 : BitVec 32).toInt : ℝ) : EReal) = 0
  simp

-- A word is the graph number `g` exactly when it reads `g` signed.
theorem ofNat_eq_iff (g : Fin 64) (w : BitVec 32) : BitVec.ofNat 32 g.val = w ↔ w.toInt = (g.val : ℤ) := by
  have hg := StableHlo.Predicate.toInt_ofNat_small g.val (by have := g.isLt; omega)
  exact ⟨fun h => h ▸ hg, fun h => BitVec.eq_of_toInt_eq (hg.trans h.symm)⟩

-- The padding label reads −1, no graph number.
theorem hot_pad (g : Fin 64) : hot g 4294967295#32 = 0 :=
  if_neg fun h => by
    have h1 := (ofNat_eq_iff g _).mp h
    have h2 : (4294967295#32 : BitVec 32).toInt = -1 := by decide
    omega

theorem poolSum_pad (batch : IVec Cert.KernelIdeal.S50000 32) (C : FVec Ideal Cert.KernelIdeal.S50000x64 .bf16)
    (g f : Fin 64) :
    poolSum (padL batch) (padH C) g f
      = ∑ n : Fin 50000, if BitVec.ofNat 32 g.val = batch (ix1 n) then C (ix2 n f) else 0 :=
  (Cert.Alg.sum_blocks (fun n => hot g (padL batch (ix2 0 n)) * padH C (ix2 n f)) fun n hn => by
    show hot g (padL batch (ix2 0 n)) * padH C (ix2 n f) = 0
    rw [padH_high C n f hn, mul_zero]).trans (Finset.sum_congr rfl fun n _ => by
    show hot g (padL batch (ix2 0 ⟨n.val, by omega⟩)) * padH C (ix2 ⟨n.val, by omega⟩ f) = _
    rw [padL_low, padH_low]
    exact Cert.Alg.hot_mul _ _)

theorem poolCnt_pad (batch : IVec Cert.KernelIdeal.S50000 32) (g : Fin 64) :
    poolCnt (padL batch) g
      = ∑ n : Fin 50000, if BitVec.ofNat 32 g.val = batch (ix1 n) then (1 : EReal) else 0 :=
  (Cert.Alg.sum_blocks (fun n => hot g (padL batch (ix2 0 n))) fun n hn => by
    show hot g (padL batch (ix2 0 n)) = 0
    rw [padL_high batch n hn, hot_pad]).trans (Finset.sum_congr rfl fun n _ => by
    show hot g (padL batch (ix2 0 ⟨n.val, by omega⟩)) = _
    rw [padL_low]
    rfl)

section Reference

open Cert.ReferenceIdeal
variable [Cert.ReferenceIdeal.Facts₀]
open Cert.ReferenceIdeal.Facts₀

theorem zeros_apply {t : Shape} (h : S_.BroadcastsInDim t ![]) (j : t.Idx) :
    broadcastInDim t ![] h (constant (F := Ideal) S_ .f32 0x00000000#32) j = 0 :=
  (broadcastInDim_scalar_apply h _ j).trans ((constant_apply _ _).trans Ideal.ofBits_zero_f32)

theorem ones_apply {t : Shape} (h : S_.BroadcastsInDim t ![]) (j : t.Idx) :
    broadcastInDim t ![] h (constant (F := Ideal) S_ .f32 0x3F800000#32) j = 1 :=
  (broadcastInDim_scalar_apply h _ j).trans ((constant_apply _ _).trans Ideal.ofBits_one_f32)

-- A scatter with addition at an index: the operand there plus the updates that land there.
theorem scatterAdd_apply {s si su : Shape} {φ : FTy} (d : ScatterDims s si su) {w : Nat} (x : FVec Ideal s φ)
    (idx : IVec si w) (upd : FVec Ideal su φ) (i : s.Idx) :
    Host.scatterAdd d x idx upd i
      = x i + ∑ j ∈ Finset.univ.filter (fun j => d.resultIdx? j idx = some i), upd j := rfl

-- The rows scattered by their labels: at `(g, f)` the sum over the nodes labelled `g`.
theorem num_apply (batch : IVec S50000 32) (C : FVec Ideal S50000x64 .f32) (g f : Fin 64) :
    Host.scatterAdd scatter_S64x64_S50000x1_S50000x64_1_0_0_1
        (broadcastInDim S64x64 ![] bcast_S_S64x64 (constant (F := Ideal) S_ .f32 0x00000000#32))
        (broadcastInDim S50000x1 ![0] bcast_S50000_S50000x1_0 batch) C (ix2 g f)
      = ∑ n : Fin 50000, if BitVec.ofNat 32 g.val = batch (ix1 n) then C (ix2 n f) else 0 := by
  rw [scatterAdd_apply, zeros_apply, zero_add, Finset.sum_filter, sum_idx2]
  refine Finset.sum_congr rfl (fun a _ => ?_)
  have key : ∀ b : Fin 64, (scatter_S64x64_S50000x1_S50000x64_1_0_0_1.resultIdx? (ix2 a b)
      (broadcastInDim S50000x1 ![0] bcast_S50000_S50000x1_0 batch) = some (ix2 g f))
        ↔ (BitVec.ofNat 32 g.val = batch (ix1 a) ∧ b = f) := fun b => by
    rw [Cert.Idx.scatP2_iff]
    show ((broadcastInDim S50000x1 ![0] bcast_S50000_S50000x1_0 batch (ix2 a 0)).toInt = (g.val : ℤ)
      ∧ b.val = f.val) ↔ _
    rw [Cert.Idx.col_apply, ofNat_eq_iff, Fin.val_inj]
  simp only [key]
  by_cases hc : BitVec.ofNat 32 g.val = batch (ix1 a)
  · simp only [hc, true_and, if_true]
    rw [Finset.sum_ite_eq' Finset.univ f (fun b => C (ix2 a b)), if_pos (Finset.mem_univ _)]
  · simp only [hc, false_and, if_false, Finset.sum_const_zero]

-- The ones scattered by their labels: at `g` the number of nodes labelled `g`.
theorem cnt_apply (batch : IVec S50000 32) (g : Fin 64) :
    Host.scatterAdd scatter_S64_S50000x1_S50000_n_0_0_1
        (broadcastInDim S64 ![] bcast_S_S64 (constant (F := Ideal) S_ .f32 0x00000000#32))
        (broadcastInDim S50000x1 ![0] bcast_S50000_S50000x1_0 batch)
        (broadcastInDim S50000 ![] bcast_S_S50000 (constant (F := Ideal) S_ .f32 0x3F800000#32)) (ix1 g)
      = ∑ n : Fin 50000, if BitVec.ofNat 32 g.val = batch (ix1 n) then (1 : EReal) else 0 := by
  rw [scatterAdd_apply, zeros_apply, zero_add, Finset.sum_filter, ← Equiv.sum_comp idxEquiv1.symm]
  refine Finset.sum_congr rfl (fun a _ => ?_)
  show (if scatter_S64_S50000x1_S50000_n_0_0_1.resultIdx? (ix1 a)
      (broadcastInDim S50000x1 ![0] bcast_S50000_S50000x1_0 batch) = some (ix1 g) then _ else _) = _
  rw [ones_apply]
  refine if_congr ?_ rfl rfl
  rw [Cert.Idx.scatP1_iff]
  show (broadcastInDim S50000x1 ![0] bcast_S50000_S50000x1_0 batch (ix2 a 0)).toInt = (g.val : ℤ) ↔ _
  rw [Cert.Idx.col_apply, ofNat_eq_iff]

-- The mean over each graph: the padded sums of one program and the scatters of the other agree.
theorem pool_eq (batch : IVec S50000 32) (C : FVec Ideal S50000x64 .f32) :
    Cert.Spec.pool (Cert.KernelIdeal.Val.padL batch) (Cert.KernelIdeal.Val.padH C) =
      Host.divf (Host.scatterAdd scatter_S64x64_S50000x1_S50000x64_1_0_0_1
          (broadcastInDim S64x64 ![] bcast_S_S64x64 (constant (F := Ideal) S_ .f32 0x00000000#32))
          (broadcastInDim S50000x1 ![0] bcast_S50000_S50000x1_0 batch) C)
        (broadcastInDim S64x64 ![0, 1] bcast_S64x1_S64x64_0_1
          (broadcastInDim S64x1 ![0] bcast_S64_S64x1_0
            (maximumf (Host.scatterAdd scatter_S64_S50000x1_S50000_n_0_0_1
                (broadcastInDim S64 ![] bcast_S_S64 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S64 ![] bcast_S_S64 (constant (F := Ideal) S_ .f32 0x3F800000#32))))) := by
  funext i
  obtain ⟨g, f, rfl⟩ : ∃ (g f : Fin 64), i = ix2 g f := ⟨i 0, i 1, eq_ix2 i⟩
  simp only [Cert.Spec.pool, Host.divf, Ideal.hostDivf_def]
  rw [poolSum_pad, poolCnt_pad, num_apply, Cert.Idx.bc_rows, maximumf_apply, cnt_apply, ones_apply]

end Reference

end Cert.PoolBridge

end
-- ==== Proof.Val.LayerBridge.lean ====
import proofs.«430582_j3058016715240_3_alg».proof.Proof.Ref.Spec
import proofs.«430582_j3058016715240_3_alg».proof.Proof.Val.BridgeBase
import proofs.«430582_j3058016715240_3_alg».proof.Proof.Val.PoolBridge

noncomputable section

open scoped BigOperators

namespace Cert.Bridge

open Cert.ReferenceIdeal Cert.ReferenceIdeal.Gen Cert.ReferenceIdeal.RefVal Idealize.ShloMosaic Idealize.ShloMosaic.ValueIdx
open Cert.Spec Cert.Alg Cert.Idx Cert.PoolBridge
open Cert.KernelIdeal.Val (agg dinv2 r64)

variable (ei : IVec S2x1600000 32)

theorem nrm_dst (hdst : ∀ e : S1600000.Idx, 0 ≤ (dstOf ei e).toInt) : nrm (dstOf ei) = dstOf ei :=
  wrap_of_nonneg _ hdst

theorem hostRsqrt_apply {s : Shape} (x : FVec Ideal s .f32) (i : s.Idx) : Host.rsqrt x i = Ideal.rsqrt (x i) := rfl

-- A node's factor is the inverse square root of one plus a count: a non-negative real.
theorem dinv_nnr (n : S50000.Idx) : NNR (dinv ei n) := by
  unfold dinv
  rw [hostRsqrt_apply, addf_apply, scatterAdd_apply, zeros_apply, ones_apply,
    Finset.sum_congr rfl (fun j _ => ones_apply bcast_S_S1600000 j)]
  exact rsqrt_count_nnr _

-- The source row of an edge.
abbrev src (e : Fin 1600000) : Fin 50000 := rowOf (bI (nrm (srcOf ei))) e

-- The edges whose target is node `i 0`, at feature `i 1`.
def edgesInto (i : S50000x64.Idx) : Finset S1600000x64.Idx :=
  Finset.univ.filter fun j => (dstOf ei (ix1 (j 0))).toInt = ((i 0).val : ℤ) ∧ (j 1).val = (i 1).val

theorem lands_eq (i : S50000x64.Idx) :
    (Finset.univ.filter fun j : S1600000x64.Idx => scatter_S50000x64_S1600000x1_S1600000x64_1_0_0_1.resultIdx? j
        (broadcastInDim S1600000x1 ![0] bcast_S1600000_S1600000x1_0 (dstOf ei)) = some i) = edgesInto ei i :=
  Finset.filter_congr fun j _ => by rw [scat2_iff, col_apply bcast_S1600000_S1600000x1_0 (dstOf ei) (j 0)]

-- For an edge into node `i 0` the target's row is that node's.
theorem dst_row (hdst : ∀ e : S1600000.Idx, 0 ≤ (dstOf ei e).toInt) (i : S50000x64.Idx) (j : S1600000x64.Idx)
    (hj : j ∈ edgesInto ei i) : rowOf (bI (nrm (dstOf ei))) (j 0) = i 0 := by
  have h := (Finset.mem_filter.mp hj).2.1
  rw [nrm_dst ei hdst]
  apply Fin.ext
  show min ((bI (dstOf ei)) (ix2 (j 0) 0)).toInt.toNat 49999 = (i 0).val
  rw [show bI (dstOf ei) (ix2 (j 0) 0) = dstOf ei (ix1 (j 0)) from col_apply _ _ _, h, Int.toNat_natCast]
  have h5 : (i 0).val < 50000 := (i 0).isLt
  omega

theorem dinv2_apply (n : Fin 50000) : dinv2 ei (ix2 n (0 : Fin 1)) = dinv ei (ix1 n) := by
  unfold Cert.KernelIdeal.Val.dinv2
  refine (shapeCast_apply _ _ (ix2 n (0 : Fin 1)) (ix1 n) ?_).trans ?_
  · rw [Shape.rowMajor_val_one, Shape.rowMajor_val_two]
    show n.val = n.val * 1 + 0
    omega
  · unfold Cert.KernelIdeal.Val.dinv1 dinv
    rfl

theorem r64_apply (b : FVec Ideal S64 .f32) (f : Fin 64) : r64 b (ix2 (0 : Fin 1) f) = b (ix1 f) := by
  unfold Cert.KernelIdeal.Val.r64
  exact shapeCast_a_1a_apply b _ 0 f

-- The rows gathered at the sources and summed into the targets, at an index.
theorem agg_apply (H : FVec Ideal S50000x64 .bf16) (hdst : ∀ e : S1600000.Idx, 0 ≤ (dstOf ei e).toInt)
    (i : S50000x64.Idx) : agg H ei i = 0 + ∑ j ∈ edgesInto ei i, H (ix2 (src ei (j 0)) (j 1)) := by
  show Host.scatterAdd scatter_S50000x64_S1600000x1_S1600000x64_1_0_0_1 _ (bI (nrm (dstOf ei))) _ i = _
  rw [nrm_dst ei hdst, scatterAdd_apply, zeros_apply]
  exact congrArg (0 + ·) (Finset.sum_congr (lands_eq ei i) fun j _ => gather2_apply H _ j)

-- One convolution, the two ways: the factor of the target distributes over the sum of the messages.
theorem layer_bridge {K : Nat} (d : DotDims (Sh2 50000 K) (Sh2 K 64) S50000x64) (hd : d = DotDims.plain 50000 K 64)
    (X : FVec Ideal (Sh2 50000 K) .f32) (W : FVec Ideal (Sh2 K 64) .f32) (b : FVec Ideal S64 .f32)
    (hdst : ∀ e : S1600000.Idx, 0 ≤ (dstOf ei e).toInt) :
    comb (agg (lin X W (dinv2 ei)) ei) (lin X W (dinv2 ei)) (dinv2 ei) (r64 b)
      = layer (Host.dotGeneral d none X W) ei b := by
  subst hd
  funext i
  have hlin : ∀ i' : S50000x64.Idx, lin X W (dinv2 ei) i'
      = Host.dotGeneral (DotDims.plain 50000 K 64) none X W i' * dinv ei (ix1 (i' 0)) := fun i' => by
    unfold lin
    rw [dot_apply, dinv2_apply ei (i' 0)]
  unfold layer comb
  rw [addf_apply, addf_apply, scatterAdd_apply, zeros_apply, lands_eq, mulf_apply, bc_rows, mulf_apply, bc_cols,
    agg_apply ei _ hdst, hlin i, dinv2_apply ei (i 0), r64_apply b (i 1)]
  exact agg_eq _ _ _ _ _ _ _ _ (dinv_nnr ei _) (fun j _ => hlin _) fun j hj => by
    rw [mulf_apply, gather2_apply, bc_rows, mulf_apply, gather1_apply, gather1_apply, dst_row ei hdst i j hj]

end Cert.Bridge

end
-- ==== Proof.Val.Bridge.lean ====
import proofs.«430582_j3058016715240_3_alg».proof.Proof.Val.LayerBridge

noncomputable section

open scoped BigOperators

namespace Cert.Bridge

open Cert.ReferenceIdeal Cert.ReferenceIdeal.Gen Cert.ReferenceIdeal.RefVal Idealize.ShloMosaic Idealize.ShloMosaic.ValueIdx
open Cert.Spec Cert.Alg Cert.Idx Cert.PoolBridge
open Cert.KernelIdeal.Val (agg dinv2 r64 r16 padH padL kout)

theorem relu_comb (A H : (Sh2 50000 64).Idx → EReal) (D : (Sh2 50000 1).Idx → EReal) (B : (Sh2 1 64).Idx → EReal) :
    combRelu A H D B = relu (comb A H D B) := by
  funext i
  unfold combRelu relu
  rw [maximumf_apply, zeros_apply]

theorem r16_apply (b : FVec Ideal S16 .f32) (o : Fin 16) : r16 b (ix2 (0 : Fin 1) o) = b (ix1 o) := by
  unfold Cert.KernelIdeal.Val.r16
  exact shapeCast_a_1a_apply b _ 0 o

theorem cls_bridge (P : FVec Ideal S64x64 .f32) (Wc : FVec Ideal S64x16 .f32) (bc : FVec Ideal S16 .f32) :
    cls P Wc (r16 bc) = addf (Host.dotGeneral dot_S64x64_S64x16_S64x16_1_0_0_1_n_n none P Wc)
      (broadcastInDim S64x16 ![0, 1] bcast_S1x16_S64x16_0_1 (broadcastInDim S1x16 ![1] bcast_S16_S1x16_1 bc)) := by
  funext i
  unfold cls
  rw [addf_apply, bc_cols]
  exact congrArg₂ (· + ·) (dot_apply P Wc i).symm (r16_apply bc (i 1))

variable (ei : IVec S2x1600000 32)

-- The two programs agree: layer by layer, then the mean over each graph, then the classifier.
theorem bridge (hdst : ∀ e : S1600000.Idx, 0 ≤ (dstOf ei e).toInt) (x : FVec Ideal S50000x128 .f32) (batch : IVec S50000 32)
    (W0 : FVec Ideal S128x64 .f32) (b0 : FVec Ideal S64 .f32) (W1 : FVec Ideal S64x64 .f32) (b1 : FVec Ideal S64 .f32)
    (W2 : FVec Ideal S64x64 .f32) (b2 : FVec Ideal S64 .f32) (Wc : FVec Ideal S64x16 .f32) (bc : FVec Ideal S16 .f32) :
    kout x ei batch W0 b0 W1 b1 W2 b2 Wc bc = out x ei batch W0 b0 W1 b1 W2 b2 Wc bc := by
  unfold Cert.KernelIdeal.Val.kout out
  simp only []
  rw [relu_comb, relu_comb, layer_bridge ei dot_S50000x128_S128x64_S50000x64_1_0_0_1_n_n rfl _ _ _ hdst,
    layer_bridge ei dot_S50000x64_S64x64_S50000x64_1_0_0_1_n_n rfl _ _ _ hdst,
    layer_bridge ei dot_S50000x64_S64x64_S50000x64_1_0_0_1_n_n rfl _ _ _ hdst, pool_eq, cls_bridge]

end Cert.Bridge

end
-- ==== Proof.Val.PreDecode.lean ====
import proofs.«430582_j3058016715240_3_alg».proof.Pre_finite_inputs
import Idealize.ShloMosaic.Lib.ReduceAll
import Idealize.ShloMosaic.Lib.ValueLayout
import Idealize.ShloMosaic.Lib.Pipeline.Value

noncomputable section

namespace Cert.PreDecode

open Cert.Pre_finite_inputs Idealize.ShloMosaic Idealize.ShloMosaic.ValueIdx

abbrev SRow : Shape := ⟨2, ![1, 1600000]⟩
abbrev SFlat : Shape := ⟨1, ![1600000]⟩

variable [Facts]
variable {F : FTy → Type} [FloatOps F]

-- The precondition's last conjunct bounds every entry of the edge table below by zero; its second row read flat is the targets.
theorem dst_nonneg (a0 : FVec F S50000x128 .f32) (ei : IVec S2x1600000 32) (a2 : IVec S50000 32) (a3 : FVec F S128x64 .f32)
    (a4 : FVec F S64 .f32) (a5 : FVec F S64x64 .f32) (a6 : FVec F S64 .f32) (a7 : FVec F S64x64 .f32) (a8 : FVec F S64 .f32)
    (a9 : FVec F S64x16 .f32) (a10 : FVec F S16 .f32)
    (h : fn (F := F) a0 ei a2 a3 a4 a5 a6 a7 a8 a9 a10 = fun _ => 1#1)
    (hs : S2x1600000.Slices ![1, 0] SRow) (hc : SRow.ShapeCasts SFlat) :
    ∀ e : SFlat.Idx, 0 ≤ ((shapeCast SFlat (extractStridedSlice SRow ![1, 0] ei hs) hc) e).toInt := by
  intro e
  obtain ⟨e0, rfl⟩ : ∃ e0 : Fin 1600000, e = ix1 e0 := ⟨e 0, eq_ix1 e⟩
  have e1 := congrFun h ix0
  dsimp only [fn, fn_part1, fn_part2] at e1
  have hge : (0#32 : BitVec 32).toInt ≤ (ei (ix2 1 e0)).toInt :=
    IntOp.cmpi_sge.1 (IntOp.andi_eq_one.1
      (Host.reduce_andi_all _ _ _ _ _ (IntOp.andi_eq_one.1 e1).2 (ix2 1 e0))).1
  rw [shapeCast_1a_a_apply,
    extractStridedSlice_apply ![1, 0] ei hs (ix2 0 e0) (ix2 1 e0) fun a => by
      match a with
      | ⟨0, _⟩ => rfl
      | ⟨1, _⟩ => exact (Nat.zero_add _).symm]
  exact hge

end Cert.PreDecode

end
-- ==== Proof.lean ====
import proofs.«430582_j3058016715240_3_alg».proof.Defs
import proofs.«430582_j3058016715240_3_alg».proof.Proof.Gen.Kernel
import proofs.«430582_j3058016715240_3_alg».proof.Proof.Gen.KernelIdeal
import proofs.«430582_j3058016715240_3_alg».proof.Proof.Gen.ReferenceIdeal
import proofs.«430582_j3058016715240_3_alg».proof.Proof.Gen.Pre_finite_inputs
import proofs.«430582_j3058016715240_3_alg».proof.Proof.K.Run
import proofs.«430582_j3058016715240_3_alg».proof.Proof.KI.Run
import proofs.«430582_j3058016715240_3_alg».proof.Proof.Val.KChain
import proofs.«430582_j3058016715240_3_alg».proof.Proof.Val.Bridge
import proofs.«430582_j3058016715240_3_alg».proof.Proof.Val.PreDecode
import proofs.«430582_j3058016715240_3_alg».proof.Proof.Ref.Spec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs name their result as a function of the arguments; the two functions agree where every edge target is non-negative. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W17 (F := Ideal) m ρ c (Proc.devRef .tc Cert.KernelIdeal.main_v79),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  haveI := Cert.Pre_finite_inputs.Gen.facts
  beta_reduce
  rw [Cert.ReferenceIdeal.RefVal.res_eq, Cert.KernelIdeal.Val.out_eq, h0, h1, h2, h3, h4, h5, h6, h7, h8, h9, h10]
  refine (Cert.Bridge.bridge _ ?_ _ _ _ _ _ _ _ _ _ _).symm
  exact Cert.PreDecode.dst_nonneg _ _ _ _ _ _ _ _ _ _ _ (hpre c) _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
